-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S1x1x2048 : Shape := ⟨3, ![1, 1, 2048]⟩
abbrev S4096x2048 : Shape := ⟨2, ![4096, 2048]⟩
abbrev S8192 : Shape := ⟨1, ![8192]⟩
abbrev S8192x2048 : Shape := ⟨2, ![8192, 2048]⟩
abbrev S4096x4096 : Shape := ⟨2, ![4096, 4096]⟩
abbrev S4096 : Shape := ⟨1, ![4096]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S8192x8192 : Shape := ⟨2, ![8192, 8192]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part4 {F : FTy → Type} [FloatOps F] (main_arg15 : FVec F S8192 .f32) (main_arg16 : FVec F S8192x8192 .f32) (main_arg17 : FVec F S8192 .f32) (main_v63 : IVec S_ 1) (main_v67 : IVec S_ 1) : IVec S_ 1 :=
  let main_v68 : IVec S_ 1 := andi main_v63 main_v67
  let main_v69 : FVec F S8192 .f32 := Host.absf main_arg15
  let main_cst_26 : FVec F S_ .f32 := constant S_ .f32 0x7F800000#32
  let main_v70 : FVec F S8192 .f32 := broadcastInDim S8192 ![] bcast_S_S8192 main_cst_26
  let main_v71 : IVec S8192 1 := cmpf .olt main_v69 main_v70
  let main_c_27 : IVec S_ 1 := constantI S_ 1 1#1
  let main_v72 : IVec S_ 1 := (fun x v => Host.reduce IntOp.andi x v reducesTo_S8192_S_d0 h_S_) main_v71 main_c_27
  let main_v73 : IVec S_ 1 := andi main_v68 main_v72
  let main_v74 : FVec F S8192x8192 .f32 := Host.absf main_arg16
  let main_cst_28 : FVec F S_ .f32 := constant S_ .f32 0x7F800000#32
  let main_v75 : FVec F S8192x8192 .f32 := broadcastInDim S8192x8192 ![] bcast_S_S8192x8192 main_cst_28
  let main_v76 : IVec S8192x8192 1 := cmpf .olt main_v74 main_v75
  let main_c_29 : IVec S_ 1 := constantI S_ 1 1#1
  let main_v77 : IVec S_ 1 := (fun x v => Host.reduce IntOp.andi x v reducesTo_S8192x8192_S_d0_1 h_S_) main_v76 main_c_29
  let main_v78 : IVec S_ 1 := andi main_v73 main_v77
  let main_v79 : FVec F S8192 .f32 := Host.absf main_arg17
  let main_cst_30 : FVec F S_ .f32 := constant S_ .f32 0x7F800000#32
  let main_v80 : FVec F S8192 .f32 := broadcastInDim S8192 ![] bcast_S_S8192 main_cst_30
  let main_v81 : IVec S8192 1 := cmpf .olt main_v79 main_v80
  let main_c_31 : IVec S_ 1 := constantI S_ 1 1#1
  let main_v82 : IVec S_ 1 := (fun x v => Host.reduce IntOp.andi x v reducesTo_S8192_S_d0 h_S_) main_v81 main_c_31
  let main_v83 : IVec S_ 1 := andi main_v78 main_v82
  main_v83

def fn_part3 {F : FTy → Type} [FloatOps F] (main_arg12 : FVec F S6144 .f32) (main_arg13 : FVec F S6144 .f32) (main_arg14 : FVec F S8192x2048 .f32) (main_arg15 : FVec F S8192 .f32) (main_arg16 : FVec F S8192x8192 .f32) (main_arg17 : FVec F S8192 .f32) (main_v48 : IVec S_ 1) (main_v49 : FVec F S6144x2048 .f32) (main_v50 : FVec F S6144x2048 .f32) : IVec S_ 1 :=
  let main_v51 : IVec S6144x2048 1 := cmpf .olt main_v49 main_v50
  let main_c_19 : IVec S_ 1 := constantI S_ 1 1#1
  let main_v52 : IVec S_ 1 := (fun x v => Host.reduce IntOp.andi x v reducesTo_S6144x2048_S_d0_1 h_S_) main_v51 main_c_19
  let main_v53 : IVec S_ 1 := andi main_v48 main_v52
  let main_v54 : FVec F S6144 .f32 := Host.absf main_arg12
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg13
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S8192x2048 .f32 := Host.absf main_arg14
  let main_cst_24 : FVec F S_ .f32 := constant S_ .f32 0x7F800000#32
  let main_v65 : FVec F S8192x2048 .f32 := broadcastInDim S8192x2048 ![] bcast_S_S8192x2048 main_cst_24
  let main_v66 : IVec S8192x2048 1 := cmpf .olt main_v64 main_v65
  let main_c_25 : IVec S_ 1 := constantI S_ 1 1#1
  let main_v67 : IVec S_ 1 := (fun x v => Host.reduce IntOp.andi x v reducesTo_S8192x2048_S_d0_1 h_S_) main_v66 main_c_25
  fn_part4 (F := F) main_arg15 main_arg16 main_arg17 main_v63 main_v67

def fn_part2 {F : FTy → Type} [FloatOps F] (main_arg8 : FVec F S2048x4096 .f32) (main_arg9 : FVec F S2048 .f32) (main_arg10 : FVec F S6144x2048 .f32) (main_arg11 : FVec F S6144x2048 .f32) (main_arg12 : FVec F S6144 .f32) (main_arg13 : FVec F S6144 .f32) (main_arg14 : FVec F S8192x2048 .f32) (main_arg15 : FVec F S8192 .f32) (main_arg16 : FVec F S8192x8192 .f32) (main_arg17 : FVec F S8192 .f32) (main_v33 : IVec S_ 1) : IVec S_ 1 :=
  let main_v34 : FVec F S2048x4096 .f32 := Host.absf main_arg8
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S6144x2048 .f32 := Host.absf main_arg10
  let main_cst_16 : FVec F S_ .f32 := constant S_ .f32 0x7F800000#32
  let main_v45 : FVec F S6144x2048 .f32 := broadcastInDim S6144x2048 ![] bcast_S_S6144x2048 main_cst_16
  let main_v46 : IVec S6144x2048 1 := cmpf .olt main_v44 main_v45
  let main_c_17 : IVec S_ 1 := constantI S_ 1 1#1
  let main_v47 : IVec S_ 1 := (fun x v => Host.reduce IntOp.andi x v reducesTo_S6144x2048_S_d0_1 h_S_) main_v46 main_c_17
  let main_v48 : IVec S_ 1 := andi main_v43 main_v47
  let main_v49 : FVec F S6144x2048 .f32 := Host.absf main_arg11
  let main_cst_18 : FVec F S_ .f32 := constant S_ .f32 0x7F800000#32
  let main_v50 : FVec F S6144x2048 .f32 := broadcastInDim S6144x2048 ![] bcast_S_S6144x2048 main_cst_18
  fn_part3 (F := F) main_arg12 main_arg13 main_arg14 main_arg15 main_arg16 main_arg17 main_v48 main_v49 main_v50

def fn_part1 {F : FTy → Type} [FloatOps F] (main_arg5 : FVec F S8192x2048 .f32) (main_arg6 : FVec F S4096x4096 .f32) (main_arg7 : FVec F S4096 .f32) (main_arg8 : FVec F S2048x4096 .f32) (main_arg9 : FVec F S2048 .f32) (main_arg10 : FVec F S6144x2048 .f32) (main_arg11 : FVec F S6144x2048 .f32) (main_arg12 : FVec F S6144 .f32) (main_arg13 : FVec F S6144 .f32) (main_arg14 : FVec F S8192x2048 .f32) (main_arg15 : FVec F S8192 .f32) (main_arg16 : FVec F S8192x8192 .f32) (main_arg17 : FVec F S8192 .f32) (main_v13 : IVec S_ 1) (main_v16 : IVec S1x1x2048 1) : IVec S_ 1 :=
  let main_c_5 : IVec S_ 1 := constantI S_ 1 1#1
  let main_v17 : IVec S_ 1 := (fun x v => Host.reduce IntOp.andi x v reducesTo_S1x1x2048_S_d0_1_2 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : IVec S64 32) (main_arg1 : FVec F S1x1x2048 .f32) (main_arg2 : FVec F S4096x2048 .f32) (main_arg3 : FVec F S8192 .f32) (main_arg4 : FVec F S1x1x2048 .f32) (main_arg5 : FVec F S8192x2048 .f32) (main_arg6 : FVec F S4096x4096 .f32) (main_arg7 : FVec F S4096 .f32) (main_arg8 : FVec F S2048x4096 .f32) (main_arg9 : FVec F S2048 .f32) (main_arg10 : FVec F S6144x2048 .f32) (main_arg11 : FVec F S6144x2048 .f32) (main_arg12 : FVec F S6144 .f32) (main_arg13 : FVec F S6144 .f32) (main_arg14 : FVec F S8192x2048 .f32) (main_arg15 : FVec F S8192 .f32) (main_arg16 : FVec F S8192x8192 .f32) (main_arg17 : FVec F S8192 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1x1x2048 .f32 := Host.absf main_arg4
  let main_cst_4 : FVec F S_ .f32 := constant S_ .f32 0x7F800000#32
  let main_v15 : FVec F S1x1x2048 .f32 := broadcastInDim S1x1x2048 ![] bcast_S_S1x1x2048 main_cst_4
  let main_v16 : IVec S1x1x2048 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S64 : Shape := ⟨1, ![64]⟩
abbrev S1x1x2048 : Shape := ⟨3, ![1, 1, 2048]⟩
abbrev S4096x2048 : Shape := ⟨2, ![4096, 2048]⟩
abbrev S8192 : Shape := ⟨1, ![8192]⟩
abbrev S8192x2048 : Shape := ⟨2, ![8192, 2048]⟩
abbrev S4096x4096 : Shape := ⟨2, ![4096, 4096]⟩
abbrev S4096 : Shape := ⟨1, ![4096]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S8192x8192 : Shape := ⟨2, ![8192, 8192]⟩
abbrev S1x2048 : Shape := ⟨2, ![1, 2048]⟩
abbrev S_ : Shape := ⟨0, ![]⟩
abbrev S64x1 : Shape := ⟨2, ![64, 1]⟩
abbrev S64x2048 : Shape := ⟨2, ![64, 2048]⟩
abbrev S1x4096 : Shape := ⟨2, ![1, 4096]⟩
abbrev S512x4096 : Shape := ⟨2, ![512, 4096]⟩
abbrev S1x512 : Shape := ⟨2, ![1, 512]⟩
abbrev S1 : Shape := ⟨1, ![1]⟩
abbrev S1x1 : Shape := ⟨2, ![1, 1]⟩
abbrev S512x1024 : Shape := ⟨2, ![512, 1024]⟩
abbrev S1x1024 : Shape := ⟨2, ![1, 1024]⟩
abbrev S1x6144 : Shape := ⟨2, ![1, 6144]⟩
abbrev S512x2048 : Shape := ⟨2, ![512, 2048]⟩
abbrev S1x8192 : Shape := ⟨2, ![1, 8192]⟩
abbrev S512x8192 : Shape := ⟨2, ![512, 8192]⟩

abbrev nBuf : Space → Nat
  | .hbm => 130
  | .vmem => 49
  | .smem => 0
  | _ => 0

abbrev hbmTy0_0 (i : Nat) : BufTy := match i % 128 with
  | 0 => ⟨S64, .i32⟩
  | 1 => ⟨S1x1x2048, .f32⟩
  | 2 => ⟨S4096x2048, .f32⟩
  | 3 => ⟨S8192, .f32⟩
  | 4 => ⟨S1x1x2048, .f32⟩
  | 5 => ⟨S8192x2048, .f32⟩
  | 6 => ⟨S4096x4096, .f32⟩
  | 7 => ⟨S4096, .f32⟩
  | 8 => ⟨S2048x4096, .f32⟩
  | 9 => ⟨S2048, .f32⟩
  | 10 => ⟨S6144x2048, .f32⟩
  | 11 => ⟨S6144x2048, .f32⟩
  | 12 => ⟨S6144, .f32⟩
  | 13 => ⟨S6144, .f32⟩
  | 14 => ⟨S8192x2048, .f32⟩
  | 15 => ⟨S8192, .f32⟩
  | 16 => ⟨S8192x8192, .f32⟩
  | 17 => ⟨S8192, .f32⟩
  | 18 => ⟨S1x2048, .f32⟩
  | 19 => ⟨S_, .i32⟩
  | 20 => ⟨S64, .i32⟩
  | 21 => ⟨S64, .i1⟩
  | 22 => ⟨S_, .i32⟩
  | 23 => ⟨S64, .i32⟩
  | 24 => ⟨S64, .i32⟩
  | 25 => ⟨S64, .i32⟩
  | 26 => ⟨S64x1, .i32⟩
  | 27 => ⟨S64x2048, .f32⟩
  | 28 => ⟨S_, .f32⟩
  | 29 => ⟨S2048, .f32⟩
  | 30 => ⟨S1x2048, .f32⟩
  | 31 => ⟨S_, .f32⟩
  | 32 => ⟨S1x2048, .f32⟩
  | 33 => ⟨S1x2048, .f32⟩
  | 34 => ⟨S4096x4096, .bf16⟩
  | 35 => ⟨S2048x4096, .bf16⟩
  | 36 => ⟨S6144x2048, .bf16⟩
  | 37 => ⟨S6144x2048, .bf16⟩
  | 38 => ⟨S8192x2048, .bf16⟩
  | 39 => ⟨S8192x8192, .bf16⟩
  | 40 => ⟨S4096x2048, .bf16⟩
  | 41 => ⟨S1x4096, .f32⟩
  | 42 => ⟨S1x4096, .f32⟩
  | 43 => ⟨S1x4096, .f32⟩
  | 44 => ⟨S_, .f32⟩
  | 45 => ⟨S1, .f32⟩
  | 46 => ⟨S_, .f32⟩
  | 47 => ⟨S1, .f32⟩
  | 48 => ⟨S1, .f32⟩
  | 49 => ⟨S1x1, .f32⟩
  | 50 => ⟨S1x4096, .f32⟩
  | 51 => ⟨S1x4096, .f32⟩
  | 52 => ⟨S1x4096, .f32⟩
  | 53 => ⟨S_, .f32⟩
  | 54 => ⟨S1, .f32⟩
  | 55 => ⟨S1x1, .f32⟩
  | 56 => ⟨S1x4096, .f32⟩
  | 57 => ⟨S1x4096, .f32⟩
  | 58 => ⟨S1x2048, .f32⟩
  | 59 => ⟨S1x4096, .f32⟩
  | 60 => ⟨S1x2048, .f32⟩
  | 61 => ⟨S1x2048, .f32⟩
  | 62 => ⟨S1x6144, .f32⟩
  | 63 => ⟨S1x6144, .f32⟩
  | 64 => ⟨S1x6144, .f32⟩
  | 65 => ⟨S1x6144, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x8192, .f32⟩
  | 100 => ⟨S1x8192, .f32⟩
  | 101 => ⟨S1x8192, .f32⟩
  | 102 => ⟨S1x8192, .f32⟩
  | 103 => ⟨S1x8192, .f32⟩
  | 104 => ⟨S_, .f32⟩
  | 105 => ⟨S1x8192, .f32⟩
  | 106 => ⟨S1x8192, .i1⟩
  | 107 => ⟨S1x8192, .f32⟩
  | 108 => ⟨S1x8192, .f32⟩
  | 109 => ⟨S_, .f32⟩
  | 110 => ⟨S1x8192, .f32⟩
  | 111 => ⟨S1x8192, .f32⟩
  | 112 => ⟨S1x8192, .f32⟩
  | 113 => ⟨S1x8192, .f32⟩
  | 114 => ⟨S1x8192, .f32⟩
  | 115 => ⟨S_, .f32⟩
  | 116 => ⟨S1, .f32⟩
  | 117 => ⟨S_, .f32⟩
  | 118 => ⟨S1, .f32⟩
  | 119 => ⟨S1, .f32⟩
  | 120 => ⟨S1x1, .f32⟩
  | 121 => ⟨S1x8192, .f32⟩
  | 122 => ⟨S1x8192, .f32⟩
  | 123 => ⟨S1x8192, .f32⟩
  | 124 => ⟨S_, .f32⟩
  | 125 => ⟨S1, .f32⟩
  | 126 => ⟨S1x1, .f32⟩
  | 127 => ⟨S1x8192, .f32⟩
  | _ => ⟨S64, .i32⟩

abbrev hbmTy0_1 (i : Nat) : BufTy := match i % 128 with
  | 0 => ⟨S1x8192, .f32⟩
  | 1 => ⟨S1x1x2048, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S1x4096, .f32⟩
  | .local _ .vmem, ⟨1, _⟩ => ⟨S512x4096, .bf16⟩
  | .local _ .vmem, ⟨2, _⟩ => ⟨S512x4096, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x2048, .f32⟩
  | .local _ .vmem, ⟨22, _⟩ => ⟨S1x2048, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x2048, .f32⟩
  | .local _ .vmem, ⟨36, _⟩ => ⟨S512x2048, .bf16⟩
  | .local _ .vmem, ⟨37, _⟩ => ⟨S512x2048, .bf16⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x8192, .f32⟩
  | .local _ .vmem, ⟨43, _⟩ => ⟨S512x8192, .bf16⟩
  | .local _ .vmem, ⟨44, _⟩ => ⟨S512x8192, .bf16⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39_0 : Ref sig .tc := ⟨.hbm, 64, rfl⟩
abbrev main_v39_1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc3_stg6_0 : Ref sig .tc := ⟨.vmem, 31, rfl⟩
abbrev cc3_stg6_1 : Ref sig .tc := ⟨.vmem, 32, rfl⟩
abbrev cc3_stg7_0 : Ref sig .tc := ⟨.vmem, 33, rfl⟩
abbrev cc3_stg7_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc4_sem0_0 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc5_sem0_0 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x8192 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S512x8192 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S1x1x2048_S1x2048 : S1x1x2048.ShapeCasts S1x2048
  bcast_S_S64 : S_.BroadcastsInDim S64 (![] : Fin 0 → Fin S64.rank)
  bcast_S64_S64x1_0 : S64.BroadcastsInDim S64x1 (![0] : Fin 1 → Fin S64x1.rank)
  reducesTo_S64x2048_S2048_d0 : S64x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bitsLt_bf16_f32 : FTy.bits .bf16 < FTy.bits .f32
  concatenates_S1x2048_S1x2048_S1x4096_d1 : Shape.Concatenates [S1x2048, S1x2048] S1x4096 1
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reducesTo_S1x4096_S1_d1 : S1x4096.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048_S1x2048 : S2048.ShapeCasts S1x2048
  shapeCasts_S6144_S1x6144 : S6144.ShapeCasts S1x6144
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  bcast_S_S1x8192 : S_.BroadcastsInDim S1x8192 (![] : Fin 0 → Fin S1x8192.rank)
  reducesTo_S1x8192_S1_d1 : S1x8192.ReducesTo [1] S1
  bcast_S1x1_S1x8192_0_1 : S1x1.BroadcastsInDim S1x8192 (![0, 1] : Fin 2 → Fin S1x8192.rank)
  bcast_S1x2048_S1x1x2048_1_2 : S1x2048.BroadcastsInDim S1x1x2048 (![1, 2] : Fin 2 → Fin S1x1x2048.rank)
  gather_S8192x2048_S64x1_S64x2048_1_0_n_n_0_1_12048_wf : GatherDims.WF S8192x2048 S64x1 S64x2048 [1] [0] [] [0] [] 1 ![1, 2048]
  dot_S1x4096_S512x4096_S1x512_1_1_0_0_n_n_wf : DotDims.WF S1x4096 S512x4096 S1x512 [1] [1] [0] [0] [] []
  dot_S1x512_S512x1024_S1x1024_1_0_0_1_n_n_wf : DotDims.WF S1x512 S512x1024 S1x1024 [1] [0] [0] [1] [] []
  dot_S1x2048_S512x2048_S1x512_1_1_0_0_n_n_wf : DotDims.WF S1x2048 S512x2048 S1x512 [1] [1] [0] [0] [] []
  dot_S1x8192_S512x8192_S1x512_1_1_0_0_n_n_wf : DotDims.WF S1x8192 S512x8192 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x4096.size a
  hwx1_0 : ∀ i : grid1.Coords, EltTy.bits .f32 = 32 ∨ (Rect.block (s := S1x4096) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .bf16 = 32 ∨ (Rect.block (s := S4096x2048) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S2048x4096.size a
  hwx2_1 : ∀ i : grid2.Coords, EltTy.bits .bf16 = 32 ∨ (Rect.block (s := S2048x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x2048.size a
  hwx2_3 : ∀ i : grid2.Coords, EltTy.bits .f32 = 32 ∨ (Rect.block (s := S1x2048) S1x512.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S6144x2048.size a
  hwx3_2 : ∀ i : grid3.Coords, EltTy.bits .bf16 = 32 ∨ (Rect.block (s := S6144x2048) S512x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S6144x2048.size a
  hwx3_3 : ∀ i : grid3.Coords, EltTy.bits .bf16 = 32 ∨ (Rect.block (s := S6144x2048) S512x2048.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x6144.size a
  hwx3_4 : ∀ i : grid3.Coords, EltTy.bits .f32 = 32 ∨ (Rect.block (s := S1x6144) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x6144.size a
  hwx3_5 : ∀ i : grid3.Coords, EltTy.bits .f32 = 32 ∨ (Rect.block (s := S1x6144) S1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x6144.size a
  hwx3_6 : ∀ i : grid3.Coords, EltTy.bits .f32 = 32 ∨ (Rect.block (s := S1x6144) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x6144.size a
  hwx3_7 : ∀ i : grid3.Coords, EltTy.bits .f32 = 32 ∨ (Rect.block (s := S1x6144) S1x512.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x2048.size a
  hwx4_0 : ∀ i : grid4.Coords, EltTy.bits .f32 = 32 ∨ (Rect.block (s := S1x2048) S1x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S8192x2048.size a
  hwx4_1 : ∀ i : grid4.Coords, EltTy.bits .bf16 = 32 ∨ (Rect.block (s := S8192x2048) S512x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x8192.size a
  hwx4_2 : ∀ i : grid4.Coords, EltTy.bits .f32 = 32 ∨ (Rect.block (s := S1x8192) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x8192.size a
  hwx4_3 : ∀ i : grid4.Coords, EltTy.bits .f32 = 32 ∨ (Rect.block (s := S1x8192) S1x512.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x8192.size a ≤ S1x8192.size a
  hwx5_0 : ∀ i : grid5.Coords, EltTy.bits .f32 = 32 ∨ (Rect.block (s := S1x8192) S1x8192.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x8192.size a ≤ S8192x8192.size a
  hwx5_1 : ∀ i : grid5.Coords, EltTy.bits .bf16 = 32 ∨ (Rect.block (s := S8192x8192) S512x8192.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x8192.size a
  hwx5_2 : ∀ i : grid5.Coords, EltTy.bits .f32 = 32 ∨ (Rect.block (s := S1x8192) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x8192.size a
  hwx5_3 : ∀ i : grid5.Coords, EltTy.bits .f32 = 32 ∨ (Rect.block (s := S1x8192) S1x512.size (cc5_transform_3 i) (hinb5_3 i)).WholeWords (EltTy.packing .f32)

variable [Facts₀]

def gather_S8192x2048_S64x1_S64x2048_1_0_n_n_0_1_12048 : GatherDims S8192x2048 S64x1 S64x2048 where
  offsetDims := [1]
  collapsedSliceDims := [0]
  operandBatchingDims := []
  startIndicesBatchingDims := []
  startIndexMap := [0]
  indexVectorDim := 1
  sliceSizes := ![1, 2048]
  wf := gather_S8192x2048_S64x1_S64x2048_1_0_n_n_0_1_12048_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x8192_S512x8192_S1x512_1_1_0_0_n_n : DotDims S1x8192 S512x8192 S1x512 where
  lhsContracting := [1]
  rhsContracting := [1]
  lhsNonContracting := [0]
  rhsNonContracting := [0]
  lhsBatch := []
  rhsBatch := []
  wf := dot_S1x8192_S512x8192_S1x512_1_1_0_0_n_n_wf

abbrev win0_0 : Pipeline.Window sig grid0 :=
  Pipeline.Window.ofSpec (Memref.whole main_v19) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v39_0) S1x512.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v39_1) S1x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v67) S1x2048.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v16) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v70) S1x8192.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v17) S512x8192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S64 : Shape := ⟨1, ![64]⟩
abbrev S1x1x2048 : Shape := ⟨3, ![1, 1, 2048]⟩
abbrev S4096x2048 : Shape := ⟨2, ![4096, 2048]⟩
abbrev S8192 : Shape := ⟨1, ![8192]⟩
abbrev S8192x2048 : Shape := ⟨2, ![8192, 2048]⟩
abbrev S4096x4096 : Shape := ⟨2, ![4096, 4096]⟩
abbrev S4096 : Shape := ⟨1, ![4096]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S8192x8192 : Shape := ⟨2, ![8192, 8192]⟩
abbrev S_ : Shape := ⟨0, ![]⟩
abbrev S64x1 : Shape := ⟨2, ![64, 1]⟩
abbrev S64x2048 : Shape := ⟨2, ![64, 2048]⟩
abbrev S1x2048 : Shape := ⟨2, ![1, 2048]⟩
abbrev S1x4096 : Shape := ⟨2, ![1, 4096]⟩
abbrev S1 : Shape := ⟨1, ![1]⟩
abbrev S1x1 : Shape := ⟨2, ![1, 1]⟩
abbrev S2048x6144 : Shape := ⟨2, ![2048, 6144]⟩
abbrev S1x6144 : Shape := ⟨2, ![1, 6144]⟩
abbrev S2048x8192 : Shape := ⟨2, ![2048, 8192]⟩
abbrev S1x8192 : Shape := ⟨2, ![1, 8192]⟩

abbrev nBuf : Space → Nat
  | .hbm => 146
  | .vmem => 0
  | .smem => 0
  | _ => 0

abbrev hbmTy0_0 (i : Nat) : BufTy := match i % 128 with
  | 0 => ⟨S64, .i32⟩
  | 1 => ⟨S1x1x2048, .f32⟩
  | 2 => ⟨S4096x2048, .f32⟩
  | 3 => ⟨S8192, .f32⟩
  | 4 => ⟨S1x1x2048, .f32⟩
  | 5 => ⟨S8192x2048, .f32⟩
  | 6 => ⟨S4096x4096, .f32⟩
  | 7 => ⟨S4096, .f32⟩
  | 8 => ⟨S2048x4096, .f32⟩
  | 9 => ⟨S2048, .f32⟩
  | 10 => ⟨S6144x2048, .f32⟩
  | 11 => ⟨S6144x2048, .f32⟩
  | 12 => ⟨S6144, .f32⟩
  | 13 => ⟨S6144, .f32⟩
  | 14 => ⟨S8192x2048, .f32⟩
  | 15 => ⟨S8192, .f32⟩
  | 16 => ⟨S8192x8192, .f32⟩
  | 17 => ⟨S8192, .f32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S64x1, .i32⟩
  | 26 => ⟨S64x2048, .f32⟩
  | 27 => ⟨S_, .f32⟩
  | 28 => ⟨S2048, .f32⟩
  | 29 => ⟨S1x2048, .f32⟩
  | 30 => ⟨S_, .f32⟩
  | 31 => ⟨S1x2048, .f32⟩
  | 32 => ⟨S1x2048, .f32⟩
  | 33 => ⟨S1x2048, .f32⟩
  | 34 => ⟨S1x4096, .f32⟩
  | 35 => ⟨S4096x4096, .f32⟩
  | 36 => ⟨S1x4096, .f32⟩
  | 37 => ⟨S1x4096, .f32⟩
  | 38 => ⟨S1x4096, .f32⟩
  | 39 => ⟨S_, .f32⟩
  | 40 => ⟨S1, .f32⟩
  | 41 => ⟨S_, .f32⟩
  | 42 => ⟨S1, .f32⟩
  | 43 => ⟨S1, .f32⟩
  | 44 => ⟨S1x1, .f32⟩
  | 45 => ⟨S1x4096, .f32⟩
  | 46 => ⟨S1x4096, .f32⟩
  | 47 => ⟨S1x4096, .f32⟩
  | 48 => ⟨S_, .f32⟩
  | 49 => ⟨S1, .f32⟩
  | 50 => ⟨S1x1, .f32⟩
  | 51 => ⟨S1x4096, .f32⟩
  | 52 => ⟨S1x4096, .f32⟩
  | 53 => ⟨S1x2048, .f32⟩
  | 54 => ⟨S1x4096, .f32⟩
  | 55 => ⟨S4096x2048, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S2048x6144, .f32⟩
  | 63 => ⟨S1x6144, .f32⟩
  | 64 => ⟨S1x6144, .f32⟩
  | 65 => ⟨S1x6144, .f32⟩
  | 66 => ⟨S2048x6144, .f32⟩
  | 67 => ⟨S1x6144, .f32⟩
  | 68 => ⟨S1x6144, .f32⟩
  | 69 => ⟨S1x6144, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S_, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S_, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S2048x8192, .f32⟩
  | 104 => ⟨S1x8192, .f32⟩
  | 105 => ⟨S1x8192, .f32⟩
  | 106 => ⟨S1x8192, .f32⟩
  | 107 => ⟨S1x8192, .f32⟩
  | 108 => ⟨S8192x8192, .f32⟩
  | 109 => ⟨S1x8192, .f32⟩
  | 110 => ⟨S1x8192, .f32⟩
  | 111 => ⟨S1x8192, .f32⟩
  | 112 => ⟨S1x8192, .f32⟩
  | 113 => ⟨S1x8192, .f32⟩
  | 114 => ⟨S_, .f32⟩
  | 115 => ⟨S1x8192, .f32⟩
  | 116 => ⟨S1x8192, .f32⟩
  | 117 => ⟨S_, .f32⟩
  | 118 => ⟨S1x8192, .f32⟩
  | 119 => ⟨S1x8192, .f32⟩
  | 120 => ⟨S_, .f32⟩
  | 121 => ⟨S1x8192, .f32⟩
  | 122 => ⟨S1x8192, .i1⟩
  | 123 => ⟨S1x8192, .f32⟩
  | 124 => ⟨S1x8192, .f32⟩
  | 125 => ⟨S_, .f32⟩
  | 126 => ⟨S1x8192, .f32⟩
  | 127 => ⟨S1x8192, .f32⟩
  | _ => ⟨S64, .i32⟩

abbrev hbmTy0_1 (i : Nat) : BufTy := match i % 128 with
  | 0 => ⟨S1x8192, .f32⟩
  | 1 => ⟨S1x8192, .f32⟩
  | 2 => ⟨S1x8192, .f32⟩
  | 3 => ⟨S_, .f32⟩
  | 4 => ⟨S1, .f32⟩
  | 5 => ⟨S_, .f32⟩
  | 6 => ⟨S1, .f32⟩
  | 7 => ⟨S1, .f32⟩
  | 8 => ⟨S1x1, .f32⟩
  | 9 => ⟨S1x8192, .f32⟩
  | 10 => ⟨S1x8192, .f32⟩
  | 11 => ⟨S1x8192, .f32⟩
  | 12 => ⟨S_, .f32⟩
  | 13 => ⟨S1, .f32⟩
  | 14 => ⟨S1x1, .f32⟩
  | 15 => ⟨S1x8192, .f32⟩
  | 16 => ⟨S1x8192, .f32⟩
  | 17 => ⟨S1x1x2048, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_cst_11 : Ref sig .tc := ⟨.hbm, 117, rfl⟩
abbrev main_v84 : Ref sig .tc := ⟨.hbm, 118, rfl⟩
abbrev main_v85 : Ref sig .tc := ⟨.hbm, 119, rfl⟩
abbrev main_cst_12 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_14 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_16 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  reducesTo_S64x2048_S2048_d0 : S64x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  shapeCasts_S1x1x2048_S1x2048 : S1x1x2048.ShapeCasts S1x2048
  concatenates_S1x2048_S1x2048_S1x4096_d1 : Shape.Concatenates [S1x2048, S1x2048] S1x4096 1
  transposes_S4096x4096_S4096x4096_1_0 : S4096x4096.Transposes [1, 0] S4096x4096
  bcast_S4096_S1x4096_1 : S4096.BroadcastsInDim S1x4096 (![1] : Fin 1 → Fin S1x4096.rank)
  reducesTo_S1x4096_S1_d1 : S1x4096.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  transposes_S2048x4096_S4096x2048_1_0 : S2048x4096.Transposes [1, 0] S4096x2048
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S8192x2048_S2048x8192_1_0 : S8192x2048.Transposes [1, 0] S2048x8192
  bcast_S8192_S1x8192_1 : S8192.BroadcastsInDim S1x8192 (![1] : Fin 1 → Fin S1x8192.rank)
  transposes_S8192x8192_S8192x8192_1_0 : S8192x8192.Transposes [1, 0] S8192x8192
  bcast_S_S1x8192 : S_.BroadcastsInDim S1x8192 (![] : Fin 0 → Fin S1x8192.rank)
  reducesTo_S1x8192_S1_d1 : S1x8192.ReducesTo [1] S1
  bcast_S1x1_S1x8192_0_1 : S1x1.BroadcastsInDim S1x8192 (![0, 1] : Fin 2 → Fin S1x8192.rank)
  bcast_S1x2048_S1x1x2048_1_2 : S1x2048.BroadcastsInDim S1x1x2048 (![1, 2] : Fin 2 → Fin S1x1x2048.rank)
  gather_S8192x2048_S64x1_S64x2048_1_0_n_n_0_1_12048_wf : GatherDims.WF S8192x2048 S64x1 S64x2048 [1] [0] [] [0] [] 1 ![1, 2048]
  dot_S1x4096_S4096x4096_S1x4096_1_0_0_1_n_n_wf : DotDims.WF S1x4096 S4096x4096 S1x4096 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x8192_S1x8192_1_0_0_1_n_n_wf : DotDims.WF S1x2048 S2048x8192 S1x8192 [1] [0] [0] [1] [] []
  dot_S1x8192_S8192x8192_S1x8192_1_0_0_1_n_n_wf : DotDims.WF S1x8192 S8192x8192 S1x8192 [1] [0] [0] [1] [] []

variable [Facts₀]

def gather_S8192x2048_S64x1_S64x2048_1_0_n_n_0_1_12048 : GatherDims S8192x2048 S64x1 S64x2048 where
  offsetDims := [1]
  collapsedSliceDims := [0]
  operandBatchingDims := []
  startIndicesBatchingDims := []
  startIndexMap := [0]
  indexVectorDim := 1
  sliceSizes := ![1, 2048]
  wf := gather_S8192x2048_S64x1_S64x2048_1_0_n_n_0_1_12048_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.K.Reg0.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x4096 := Rect.unit (s := S1x4096) ![0, 0] S1x4096.size inb_S1x4096_S1x4096_0_0
abbrev rw0 : Rect S512x4096 := Rect.unit (s := S512x4096) ![0, 0] S512x4096.size inb_S512x4096_S512x4096_0_0
abbrev rb0 : Rect S1x512 := Rect.unit (s := S1x512) ![0, 0] S1x512.size inb_S1x512_S1x512_0_0

def out0 (x : Vec F S1x4096 .f32) (w : Vec F S512x4096 .bf16) (b : Vec F S1x512 .f32) : Vec F S1x512 .f32 :=
  View.canon [⟨rb0, k0_pay1 (View.ld x rx0) (View.ld w rw0) (View.ld b rb0)⟩]

theorem cover0 (p0 : Vec F S1x512 .f32) (y : S1x512.Idx) :
    ∃ pc ∈ ([⟨rb0, p0⟩] : List (View.Piece (Elt F) S1x512 .f32)), y ∈ pc.1.set :=
  View.cover_of_tiled [⟨rb0, p0⟩] S1x512.size (by rfl) y

set_option maxHeartbeats 1000000 in

theorem sound_kernel0 (c : Dev nD) (E : Set ℕ) (i : grid0.Coords)
    (arg1 : Memref sig .tc .vmem S1x4096 .f32) (harg1 : arg1.IsWhole) (arg2 : Memref sig .tc .vmem S512x4096 .bf16) (harg2 : arg2.IsWhole)
    (arg3 : Memref sig .tc .vmem S1x512 .f32) (harg3 : arg3.IsWhole) (arg4 : Memref sig .tc .vmem S1x512 .f32) (harg4 : arg4.IsWhole)
    (x : Vec F S1x4096 .f32) (w : Vec F S512x4096 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.K.Reg1.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S1x512 := Rect.unit (s := S1x512) ![0, 0] S1x512.size inb_S1x512_S1x512_0_0
abbrev rw1 : Rect S512x1024 := Rect.unit (s := S512x1024) ![0, 0] S512x1024.size inb_S512x1024_S512x1024_0_0
abbrev ra1 : Rect S1x1024 := Rect.unit (s := S1x1024) ![0, 0] S1x1024.size inb_S1x1024_S1x1024_0_0

def zero1 : Vec F S1x1024 .f32 := View.canon [⟨ra1, k1_pay1 (F := F)⟩]

def step1 (x : Vec F S1x512 .f32) (s : Vec F S1x1024 .f32) (w : Vec F S512x1024 .bf16) : Vec F S1x1024 .f32 :=
  View.canon [⟨ra1, k1_pay2 (View.ld x rx1) (View.ld s ra1) (View.ld w rw1)⟩]

def acc1 (c : Dev nD) : (n : ℕ) → n < cfg1.N → Vec F S1x1024 .f32
  | 0, hn => step1 (iblk1 V c 0 ⟨0, hn⟩) zero1 (iblk1 V c 1 ⟨0, hn⟩)
  | n + 1, hn =>
    if (n + 1) % 8 = 0 then step1 (iblk1 V c 0 ⟨n + 1, hn⟩) zero1 (iblk1 V c 1 ⟨n + 1, hn⟩)
    else step1 (iblk1 V c 0 ⟨n + 1, hn⟩) (acc1 c n (Nat.lt_of_succ_lt hn)) (iblk1 V c 1 ⟨n + 1, hn⟩)

theorem acc1_reset (c : Dev nD) (t : Fin cfg1.N) (h : t.val % 8 = 0) :
    acc1 V c t.val t.isLt = View.canon [⟨ra1, k1_pay2 (View.ld (iblk1 V c 0 t) rx1) (View.ld (View.canon [⟨ra1, k1_pay1 (F := F)⟩]) ra1) (View.ld (iblk1 V c 1 t) rw1)⟩] := by
  obtain ⟨n, hn⟩ := t
  cases n with
  | zero => rfl
  | succ n => exact (if_pos h).trans rfl

theorem acc1_step (c : Dev nD) (t : Fin cfg1.N) (h : t.val % 8 ≠ 0) :
    acc1 V c t.val t.isLt = View.canon [⟨ra1, k1_pay2 (View.ld (iblk1 V c 0 t) rx1) (View.ld (acc1 V c (t.val - 1) (by omega)) ra1) (View.ld (iblk1 V c 1 t) rw1)⟩] := by
  obtain ⟨n, hn⟩ := t
  cases n with
  | zero => exact absurd (Nat.zero_mod _) h
  | succ n => exact (if_neg h).trans rfl

def PhiS1 (c : Dev nD) : (n : ℕ) → n ≤ cfg1.N → sProp 𝕄
  | 0, _ => Pipeline.ΦA spec1 c
  | n + 1, hn => iprop(owns (c : Thread nD τ) (Memref.whole cc1_scratch0 : Memref sig .tc .vmem S1x1024 .f32) fullShare (acc1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

abbrev cond1 (i : grid1.Coords) : Prop :=
  (Scalar.cmpi .ne (Scalar.extui (Scalar.cmpi .eq (BitVec.ofNat 32 (i 1).val) 0#32)) 0#32) = 1#1

theorem hcond1 : ∀ t : Fin cfg1.N, cond1 (grid1.coords t) ↔ t.val % 8 = 0 :=
  (by decide +kernel : ∀ t : Fin grid1.N, cond1 (grid1.coords t) ↔ t.val % 8 = 0)

theorem cover1 (p0 : Vec F S1x1024 .f32) (y : S1x1024.Idx) :
    ∃ pc ∈ ([⟨ra1, p0⟩] : List (View.Piece (Elt F) S1x1024 .f32)), y ∈ pc.1.set :=
  View.cover_of_tiled [⟨ra1, p0⟩] S1x1024.size (by rfl) y

theorem cover1' (p0 p1 : Vec F S1x1024 .f32) (y : S1x1024.Idx) :
    ∃ pc ∈ ([⟨ra1, p0⟩, ⟨ra1, p1⟩] : List (View.Piece (Elt F) S1x1024 .f32)), y ∈ pc.1.set := by
  obtain ⟨pc, hm, hy⟩ := cover1 p0 y
  exact ⟨pc, List.mem_cons.mpr (Or.inl (List.mem_singleton.mp hm)), hy⟩

theorem canon_whole1 (P : Vec F S1x1024 .f32) (L : List (View.Piece (Elt F) S1x1024 .f32)) :
    View.canon (⟨ra1, P⟩ :: L) = View.canon [⟨ra1, P⟩] := by
  funext y
  obtain ⟨pc, hm, hy⟩ := cover1 P y
  obtain rfl := List.mem_singleton.mp hm
  obtain ⟨x, rfl⟩ := ra1.exists_idx_of_mem hy
  exact (View.canon_cons_emb ra1 P L x).trans (View.canon_cons_emb ra1 P [] x).symm

theorem ld_canon1 (P : Vec F S1x1024 .f32) (L : List (View.Piece (Elt F) S1x1024 .f32)) :
    View.ld (View.canon (⟨ra1, P⟩ :: L)) ra1 = P :=
  funext fun x => View.canon_cons_emb ra1 P L x

set_option maxHeartbeats 1000000 in

theorem sound_kernel1_reset (c : Dev nD) (E : Set ℕ) (i : grid1.Coords) (hc : cond1 i)
    (arg2 : Memref sig .tc .vmem S1x512 .f32) (harg2 : arg2.IsWhole) (arg3 : Memref sig .tc .vmem S512x1024 .bf16) (harg3 : arg3.IsWhole)
    (arg4 : Memref sig .tc .vmem S1x1024 .f32) (harg4 : arg4.IsWhole) (arg5 : Memref sig .tc .vmem S1x1024 .f32) (harg5 : arg5.IsWhole)
    (x : Vec F S1x512 .f32) (w : Vec F S512x1024 .bf16) (K : PUnit → sProp 𝕄) :
    iprop(owns (c : Thread nD τ) arg2 fullShare x ∗ owns (c : Thread nD τ) arg3 fullShare w
        ∗ (∃ d, owns (c : Thread nD τ) arg4 fullShare d) ∗ (∃ s, owns (c : Thread nD τ) arg5 fullShare s)
        ∗ (iprop(owns (c : Thread nD τ) arg2 fullShare x ∗ owns (c : Thread nD τ) arg3 fullShare w
            ∗ owns (c : Thread nD τ) arg4 fullShare (step1 x zero1 w) ∗ owns (c : Thread nD τ) arg5 fullShare (step1 x zero1 w)) -∗ K ⟨⟩))
      ⊢ wp frame (wpE (defs₀ (F := F)) Variants.none c none) E (cc1__accum_kernel i arg2 harg2 arg3 harg3 arg4 harg4 arg5 harg5) K := by
  simp only [cc1__accum_kernel_eq_skeleton]; unfold cc1__accum_kernel_skel
  unfold owns
  iintro ⟨⟨%f2, %hf2, H2⟩, ⟨%f3, %hf3, H3⟩, ⟨%d4, %f4, -, H4⟩, ⟨%s5, %f5, -, H5⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _)]
    unfold sound_kernel1_reset.sl.v14 sound_kernel1_reset.sl.H5_2 sound_kernel1_reset.sl.v6 sound_kernel1_reset.sl.H5_1
    rw [View.readCov_eq_canon_ld _ _ ra1 (cover1' _ _), ld_canon1, View.readCov_eq_canon_ld _ _ ra1 (cover1 _)]
    unfold step1 zero1
    simp only [View.readAt_eq_ld] <;> rfl
  iexists _; isplitr
  swap; · iexact H5
  ipureintro
  unfold sound_kernel1_reset.sl.H5_2 sound_kernel1_reset.sl.v6 sound_kernel1_reset.sl.H5_1
  rw [View.read_writes_eq_canon _ _ _ (cover1' _ _), canon_whole1 _ [⟨ra1, k1_pay1 (F := F)⟩], View.readCov_eq_canon_ld _ _ ra1 (cover1 _)]
  unfold step1 zero1
  simp only [View.readAt_eq_ld] <;> rfl

set_option maxHeartbeats 1000000 in

theorem sound_kernel1_step (c : Dev nD) (E : Set ℕ) (i : grid1.Coords) (hc : ¬cond1 i)
    (arg2 : Memref sig .tc .vmem S1x512 .f32) (harg2 : arg2.IsWhole) (arg3 : Memref sig .tc .vmem S512x1024 .bf16) (harg3 : arg3.IsWhole)
    (arg4 : Memref sig .tc .vmem S1x1024 .f32) (harg4 : arg4.IsWhole) (arg5 : Memref sig .tc .vmem S1x1024 .f32) (harg5 : arg5.IsWhole)
    (x : Vec F S1x512 .f32) (s : Vec F S1x1024 .f32) (w : Vec F S512x1024 .bf16) (K : PUnit → sProp 𝕄) :
    iprop(owns (c : Thread nD τ) arg2 fullShare x ∗ owns (c : Thread nD τ) arg3 fullShare w
        ∗ (∃ d, owns (c : Thread nD τ) arg4 fullShare d) ∗ owns (c : Thread nD τ) arg5 fullShare s
        ∗ (iprop(owns (c : Thread nD τ) arg2 fullShare x ∗ owns (c : Thread nD τ) arg3 fullShare w
            ∗ owns (c : Thread nD τ) arg4 fullShare (step1 x s w) ∗ owns (c : Thread nD τ) arg5 fullShare (step1 x s w)) -∗ K ⟨⟩))
      ⊢ wp frame (wpE (defs₀ (F := F)) Variants.none c none) E (cc1__accum_kernel i arg2 harg2 arg3 harg3 arg4 harg4 arg5 harg5) K := by
  simp only [cc1__accum_kernel_eq_skeleton]; unfold cc1__accum_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _)]
    unfold sound_kernel1_step.sl.v14 sound_kernel1_step.sl.H5_1
    rw [View.readCov_eq_canon_ld _ _ ra1 (cover1 _), ld_canon1]
    unfold step1
    simp only [View.readAt_eq_ld] <;> rfl
  iexists _; isplitr
  swap; · iexact H5
  ipureintro
  unfold sound_kernel1_step.sl.H5_1
  rw [View.read_writes_eq_canon _ _ _ (cover1 _)]
  unfold step1
  simp only [View.readAt_eq_ld] <;> rfl

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

abbrev scM1 : Memref sig .tc .vmem S1x1024 .f32 := Memref.whole cc1_scratch0

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem acc1_reset' (c : Dev nD) (t : Fin cfg1.N) (h : t.val % 8 = 0) :
    acc1 V c t.val t.isLt = step1 (iblk1 V c 0 t) zero1 (iblk1 V c 1 t) := by
  obtain ⟨n, hn⟩ := t
  cases n with
  | zero => rfl
  | succ n => exact (if_pos h).trans rfl
theorem acc1_step' (c : Dev nD) (t : Fin cfg1.N) (h : t.val % 8 ≠ 0) :
    acc1 V c t.val t.isLt = step1 (iblk1 V c 0 t) (acc1 V c (t.val - 1) (by omega)) (iblk1 V c 1 t) := by
  obtain ⟨n, hn⟩ := t
  cases n with
  | zero => exact absurd (Nat.zero_mod _) h
  | succ n => exact (if_neg h).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_2, PhiS1_castSucc]
  by_cases h0 : t.val % 8 = 0
  · rw [acc1_reset' V c t h0]
    by_cases hz : t.val = 0
    · rw [PhiS1_zero V c _ _ hz, PhiA1_eq]
      iintro ⟨⟨⟨HS, HR⟩, Hg⟩, Ho, ⟨%d0, H0⟩, ⟨%d1, H1⟩, ⟨%d2, H2⟩⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS1_pos V c _ _ hz]
      iintro ⟨⟨HS, HR, Hg⟩, Ho, ⟨%d0, H0⟩, ⟨%d1, H1⟩, ⟨%d2, H2⟩⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · have hz : t.val ≠ 0 := fun h => h0 (by rw [h])
    rw [acc1_step' V c t h0, PhiS1_pos V c _ _ hz]
    iintro ⟨⟨HS, HR, Hg⟩, Ho, ⟨%d0, H0⟩, ⟨%d1, H1⟩, ⟨%d2, H2⟩⟩
    iapply (sound_kernel1_step c Set.univ _ (fun h => h0 ((hcond1 t).mp h)) _ _ _ _ _ _ _ _ (iblk1 V c 0 t) _ (iblk1 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]; · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Reg2.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S1x4096 := Rect.unit (s := S1x4096) ![0, 0] S1x4096.size inb_S1x4096_S1x4096_0_0
abbrev rw2 : Rect S512x4096 := Rect.unit (s := S512x4096) ![0, 0] S512x4096.size inb_S512x4096_S512x4096_0_0
abbrev rb2 : Rect S1x512 := Rect.unit (s := S1x512) ![0, 0] S1x512.size inb_S1x512_S1x512_0_0

def out2 (x : Vec F S1x4096 .f32) (w : Vec F S512x4096 .bf16) (b : Vec F S1x512 .f32) : Vec F S1x512 .f32 :=
  View.canon [⟨rb2, k2_pay1 (View.ld x rx2) (View.ld w rw2) (View.ld b rb2)⟩]

theorem cover2 (p0 : Vec F S1x512 .f32) (y : S1x512.Idx) :
    ∃ pc ∈ ([⟨rb2, p0⟩] : List (View.Piece (Elt F) S1x512 .f32)), y ∈ pc.1.set :=
  View.cover_of_tiled [⟨rb2, p0⟩] S1x512.size (by rfl) y

set_option maxHeartbeats 1000000 in

theorem sound_kernel2 (c : Dev nD) (E : Set ℕ) (i : grid2.Coords)
    (arg1 : Memref sig .tc .vmem S1x4096 .f32) (harg1 : arg1.IsWhole) (arg2 : Memref sig .tc .vmem S512x4096 .bf16) (harg2 : arg2.IsWhole)
    (arg3 : Memref sig .tc .vmem S1x512 .f32) (harg3 : arg3.IsWhole) (arg4 : Memref sig .tc .vmem S1x512 .f32) (harg4 : arg4.IsWhole)
    (x : Vec F S1x4096 .f32) (w : Vec F S512x4096 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out2 x w b)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.K.Reg3.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev rx3 : Rect S1x2048 := Rect.unit (s := S1x2048) ![0, 0] S1x2048.size inb_S1x2048_S1x2048_0_0
abbrev rw3 : Rect S512x2048 := Rect.unit (s := S512x2048) ![0, 0] S512x2048.size inb_S512x2048_S512x2048_0_0
abbrev rb3 : Rect S1x512 := Rect.unit (s := S1x512) ![0, 0] S1x512.size inb_S1x512_S1x512_0_0

def out3_6 (x : Vec F S1x2048 .f32) (w : Vec F S512x2048 .bf16) (b : Vec F S1x512 .f32) : Vec F S1x512 .f32 :=
  View.canon [⟨rb3, k3_pay1 (View.ld x rx3) (View.ld w rw3) (View.ld b rb3)⟩]

def out3_7 (h : Vec F S1x2048 .f32) (w : Vec F S512x2048 .bf16) (b : Vec F S1x512 .f32) : Vec F S1x512 .f32 :=
  View.canon [⟨rb3, k3_pay2 (View.ld h rx3) (View.ld w rw3) (View.ld b rb3)⟩]

theorem cover3 (p0 : Vec F S1x512 .f32) (y : S1x512.Idx) :
    ∃ pc ∈ ([⟨rb3, p0⟩] : List (View.Piece (Elt F) S1x512 .f32)), y ∈ pc.1.set :=
  View.cover_of_tiled [⟨rb3, p0⟩] S1x512.size (by rfl) y

set_option maxHeartbeats 1000000 in

theorem sound_kernel3 (c : Dev nD) (E : Set ℕ) (i : grid3.Coords)
    (arg1 : Memref sig .tc .vmem S1x2048 .f32) (harg1 : arg1.IsWhole) (arg2 : Memref sig .tc .vmem S1x2048 .f32) (harg2 : arg2.IsWhole)
    (arg3 : Memref sig .tc .vmem S512x2048 .bf16) (harg3 : arg3.IsWhole) (arg4 : Memref sig .tc .vmem S512x2048 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x h : Vec F S1x2048 .f32) (wi wh : Vec F S512x2048 .bf16) (bi bh : Vec F S1x512 .f32) (K : PUnit → sProp 𝕄) :
    iprop(owns (c : Thread nD τ) arg1 fullShare x ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out3_6 x wi bi)
            ∗ owns (c : Thread nD τ) arg8 fullShare (out3_7 h wh bh)) -∗ K ⟨⟩))
      ⊢ wp frame (wpE (defs₀ (F := F)) Variants.none c none) E
          (cc3__gru_gates_kernel i arg1 harg1 arg2 harg2 arg3 harg3 arg4 harg4 arg5 harg5 arg6 harg6 arg7 harg7 arg8 harg8) K := by
  simp only [cc3__gru_gates_kernel_eq_skeleton]; unfold cc3__gru_gates_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 2 t) (iblk3 V c 4 t)
    | ⟨7, _⟩ => out3_7 (iblk3 V c 1 t) (iblk3 V c 3 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 2 t) (iblk3 V c 4 t) := by dsimp only [dat3]
theorem after3_7 (c : Dev nD) (t : Fin cfg3.N) :
    (dat3 V c).after 7 t = out3_7 (iblk3 V c 1 t) (iblk3 V c 3 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand

end
-- ==== Proof.K.Reg4.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rx4 : Rect S1x2048 := Rect.unit (s := S1x2048) ![0, 0] S1x2048.size inb_S1x2048_S1x2048_0_0
abbrev rw4 : Rect S512x2048 := Rect.unit (s := S512x2048) ![0, 0] S512x2048.size inb_S512x2048_S512x2048_0_0
abbrev rb4 : Rect S1x512 := Rect.unit (s := S1x512) ![0, 0] S1x512.size inb_S1x512_S1x512_0_0

def out4 (x : Vec F S1x2048 .f32) (w : Vec F S512x2048 .bf16) (b : Vec F S1x512 .f32) : Vec F S1x512 .f32 :=
  View.canon [⟨rb4, k4_pay1 (View.ld x rx4) (View.ld w rw4) (View.ld b rb4)⟩]

theorem cover4 (p0 : Vec F S1x512 .f32) (y : S1x512.Idx) :
    ∃ pc ∈ ([⟨rb4, p0⟩] : List (View.Piece (Elt F) S1x512 .f32)), y ∈ pc.1.set :=
  View.cover_of_tiled [⟨rb4, p0⟩] S1x512.size (by rfl) y

set_option maxHeartbeats 1000000 in

theorem sound_kernel4 (c : Dev nD) (E : Set ℕ) (i : grid4.Coords)
    (arg1 : Memref sig .tc .vmem S1x2048 .f32) (harg1 : arg1.IsWhole) (arg2 : Memref sig .tc .vmem S512x2048 .bf16) (harg2 : arg2.IsWhole)
    (arg3 : Memref sig .tc .vmem S1x512 .f32) (harg3 : arg3.IsWhole) (arg4 : Memref sig .tc .vmem S1x512 .f32) (harg4 : arg4.IsWhole)
    (x : Vec F S1x2048 .f32) (w : Vec F S512x2048 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out4 x w b)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Hand

end
-- ==== Proof.K.Reg5.lean ====
import proofs.«416939_j18966575579384_3_alg».proof.Proof.Gen.Kernel.Launch
import proofs.«416939_j18966575579384_3_alg».proof.Proof.Gen.Kernel.Skeleton
import proofs.«416939_j18966575579384_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev rx5 : Rect S1x8192 := Rect.unit (s := S1x8192) ![0, 0] S1x8192.size inb_S1x8192_S1x8192_0_0
abbrev rw5 : Rect S512x8192 := Rect.unit (s := S512x8192) ![0, 0] S512x8192.size inb_S512x8192_S512x8192_0_0
abbrev rb5 : Rect S1x512 := Rect.unit (s := S1x512) ![0, 0] S1x512.size inb_S1x512_S1x512_0_0

def out5 (x : Vec F S1x8192 .f32) (w : Vec F S512x8192 .bf16) (b : Vec F S1x512 .f32) : Vec F S1x512 .f32 :=
  View.canon [⟨rb5, k5_pay1 (View.ld x rx5) (View.ld w rw5) (View.ld b rb5)⟩]

theorem cover5 (p0 : Vec F S1x512 .f32) (y : S1x512.Idx) :
    ∃ pc ∈ ([⟨rb5, p0⟩] : List (View.Piece (Elt F) S1x512 .f32)), y ∈ pc.1.set :=
  View.cover_of_tiled [⟨rb5, p0⟩] S1x512.size (by rfl) y

set_option maxHeartbeats 1000000 in

theorem sound_kernel5 (c : Dev nD) (E : Set ℕ) (i : grid5.Coords)
    (arg1 : Memref sig .tc .vmem S1x8192 .f32) (harg1 : arg1.IsWhole) (arg2 : Memref sig .tc .vmem S512x8192 .bf16) (harg2 : arg2.IsWhole)
    (arg3 : Memref sig .tc .vmem S1x512 .f32) (harg3 : arg3.IsWhole) (arg4 : Memref sig .tc .vmem S1x512 .f32) (harg4 : arg4.IsWhole)
    (x : Vec F S1x8192 .f32) (w : Vec F S512x8192 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out5 x w b)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand

end
-- ==== Proof.K.Run.lean ====
import proofs.«416939_j18966575579384_3_alg».proof.Proof.Gen.Kernel.Launch
import proofs.«416939_j18966575579384_3_alg».proof.Proof.Gen.Kernel.Regions
import proofs.«416939_j18966575579384_3_alg».proof.Proof.K.Reg0
import proofs.«416939_j18966575579384_3_alg».proof.Proof.K.Reg1
import proofs.«416939_j18966575579384_3_alg».proof.Proof.K.Reg2
import proofs.«416939_j18966575579384_3_alg».proof.Proof.K.Reg3
import proofs.«416939_j18966575579384_3_alg».proof.Proof.K.Reg4
import proofs.«416939_j18966575579384_3_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)

-- A buffer that no host operation writes and that is no region's array ends as launched: walk the items back one by one.
theorem W13_of_unwritten (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r)
    (h5 : r ∉ hostOps5_W) (k5 : ∀ w, Pipeline.arrRef spec5 w ≠ r)
    (h6 : r ∉ hostOps6_W) :
    W13 m ρ c (Proc.devRef .tc r) = m ((c : Thread nD τ).loc r) :=
  calc W13 m ρ c (Proc.devRef .tc r)
    _ = W12 m ρ c (Proc.devRef .tc r) := StableHlo.after_of_writes_sub hostOps6 _ hostOps6_writes h6
    _ = W11 m ρ c (Proc.devRef .tc r) := W12_of_ne m ρ c r k5
    _ = W10 m ρ c (Proc.devRef .tc r) := StableHlo.after_of_writes_sub hostOps5 _ hostOps5_writes h5
    _ = W9 m ρ c (Proc.devRef .tc r) := W10_of_ne m ρ c r k4
    _ = W8 m ρ c (Proc.devRef .tc r) := StableHlo.after_of_writes_sub hostOps4 _ hostOps4_writes h4
    _ = W7 m ρ c (Proc.devRef .tc r) := W8_of_ne m ρ c r k3
    _ = W6 m ρ c (Proc.devRef .tc r) := StableHlo.after_of_writes_sub hostOps3 _ hostOps3_writes h3
    _ = W5 m ρ c (Proc.devRef .tc r) := W6_of_ne m ρ c r k2
    _ = W4 m ρ c (Proc.devRef .tc r) := StableHlo.after_of_writes_sub hostOps2 _ hostOps2_writes h2
    _ = W3 m ρ c (Proc.devRef .tc r) := W4_of_ne m ρ c r k1
    _ = W2 m ρ c (Proc.devRef .tc r) := StableHlo.after_of_writes_sub hostOps1 _ hostOps1_writes h1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

-- No host operation writes an argument and none is a window's array of a region.
theorem W13_arg (c : Dev nD) (r : Ref sig .tc) (h : r ∈ mainArgs) :
    W13 m ρ c (Proc.devRef .tc r) = m ((c : Thread nD τ).loc r) :=
  W13_of_unwritten m ρ c r ((by decide : ∀ r ∈ mainArgs, r ∉ hostOps0_W) r h) ((by decide : ∀ r ∈ mainArgs, ∀ w, Pipeline.arrRef spec0 w ≠ r) r h) ((by decide : ∀ r ∈ mainArgs, r ∉ hostOps1_W) r h) ((by decide : ∀ r ∈ mainArgs, ∀ w, Pipeline.arrRef spec1 w ≠ r) r h)
    ((by decide : ∀ r ∈ mainArgs, r ∉ hostOps2_W) r h) ((by decide : ∀ r ∈ mainArgs, ∀ w, Pipeline.arrRef spec2 w ≠ r) r h) ((by decide : ∀ r ∈ mainArgs, r ∉ hostOps3_W) r h) ((by decide : ∀ r ∈ mainArgs, ∀ w, Pipeline.arrRef spec3 w ≠ r) r h)
    ((by decide : ∀ r ∈ mainArgs, r ∉ hostOps4_W) r h) ((by decide : ∀ r ∈ mainArgs, ∀ w, Pipeline.arrRef spec4 w ≠ r) r h) ((by decide : ∀ r ∈ mainArgs, r ∉ hostOps5_W) r h) ((by decide : ∀ r ∈ mainArgs, ∀ w, Pipeline.arrRef spec5 w ≠ r) r h)
    ((by decide : ∀ r ∈ mainArgs, r ∉ hostOps6_W) r h)

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
-- At the end of the run an argument's buffer holds what the launch memory held.
theorem arg_kept (c : Dev nD) (mem : (ℓ : Loc nD τ sig) → Buf (Elt F) ℓ)
    (h : ∀ b ∈ Pipeline.ucRefs τ sig, mem (((c : Thread nD τ)).1, b) = W13 m ρ c b) (r : Ref sig .tc) (hr : r ∈ mainArgs) :
    mem ((c.tc : Thread nD τ).loc r) = m ((c.tc : Thread nD τ).loc r) :=
  (h _ (mem_uc r ((by decide : ∀ r ∈ mainArgs, ¬ (Proc.devRef .tc r : DevRef τ sig).isScoped) r hr))).trans (W13_arg m ρ c r hr)

abbrev Tₙ (c : Dev nD) : sProp 𝕄 := iprop(StableHlo.held (c : Thread nD τ) (Pipeline.ucRefs τ sig) (W13 m ρ c) ∗ ∃ r, prngReg c r)

theorem last_state (c : Dev nD) :
    iprop(StableHlo.held (c : Thread nD τ) (Pipeline.ucRefs τ sig) (W13 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    rw [Pipeline.ownSems0_none]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := by
  rw [main_chain c, Pipeline.Seg.run_eq_chain]
  rfl

set_option backward.isDefEq.respectTransparency.types false in

-- The run over the thirteen items ends with every buffer at the last contents of the fold.
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨arg_kept m ρ c _ (h c) main_arg0 (by decide),
     arg_kept m ρ c _ (h c) main_arg1 (by decide),
     arg_kept m ρ c _ (h c) main_arg2 (by decide),
     arg_kept m ρ c _ (h c) main_arg3 (by decide),
     arg_kept m ρ c _ (h c) main_arg4 (by decide),
     arg_kept m ρ c _ (h c) main_arg5 (by decide),
     arg_kept m ρ c _ (h c) main_arg6 (by decide),
     arg_kept m ρ c _ (h c) main_arg7 (by decide),
     arg_kept m ρ c _ (h c) main_arg8 (by decide),
     arg_kept m ρ c _ (h c) main_arg9 (by decide),
     arg_kept m ρ c _ (h c) main_arg10 (by decide),
     arg_kept m ρ c _ (h c) main_arg11 (by decide),
     arg_kept m ρ c _ (h c) main_arg12 (by decide),
     arg_kept m ρ c _ (h c) main_arg13 (by decide),
     arg_kept m ρ c _ (h c) main_arg14 (by decide),
     arg_kept m ρ c _ (h c) main_arg15 (by decide),
     arg_kept m ρ c _ (h c) main_arg16 (by decide),
     arg_kept m ρ c _ (h c) main_arg17 (by decide)⟩)
    (run_all m ρ)

end Cert.Kernel.Hand

end
-- ==== Proof.KI.Reg0.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x4096 := Rect.unit (s := S1x4096) ![0, 0] S1x4096.size inb_S1x4096_S1x4096_0_0
abbrev rw0 : Rect S512x4096 := Rect.unit (s := S512x4096) ![0, 0] S512x4096.size inb_S512x4096_S512x4096_0_0
abbrev rb0 : Rect S1x512 := Rect.unit (s := S1x512) ![0, 0] S1x512.size inb_S1x512_S1x512_0_0

def out0 (x : Vec F S1x4096 .f32) (w : Vec F S512x4096 .bf16) (b : Vec F S1x512 .f32) : Vec F S1x512 .f32 :=
  View.canon [⟨rb0, k0_pay1 (View.ld x rx0) (View.ld w rw0) (View.ld b rb0)⟩]

theorem cover0 (p0 : Vec F S1x512 .f32) (y : S1x512.Idx) :
    ∃ pc ∈ ([⟨rb0, p0⟩] : List (View.Piece (Elt F) S1x512 .f32)), y ∈ pc.1.set :=
  View.cover_of_tiled [⟨rb0, p0⟩] S1x512.size (by rfl) y

set_option maxHeartbeats 1000000 in

theorem sound_kernel0 (c : Dev nD) (E : Set ℕ) (i : grid0.Coords)
    (arg1 : Memref sig .tc .vmem S1x4096 .f32) (harg1 : arg1.IsWhole) (arg2 : Memref sig .tc .vmem S512x4096 .bf16) (harg2 : arg2.IsWhole)
    (arg3 : Memref sig .tc .vmem S1x512 .f32) (harg3 : arg3.IsWhole) (arg4 : Memref sig .tc .vmem S1x512 .f32) (harg4 : arg4.IsWhole)
    (x : Vec F S1x4096 .f32) (w : Vec F S512x4096 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.Reg1.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S1x512 := Rect.unit (s := S1x512) ![0, 0] S1x512.size inb_S1x512_S1x512_0_0
abbrev rw1 : Rect S512x1024 := Rect.unit (s := S512x1024) ![0, 0] S512x1024.size inb_S512x1024_S512x1024_0_0
abbrev ra1 : Rect S1x1024 := Rect.unit (s := S1x1024) ![0, 0] S1x1024.size inb_S1x1024_S1x1024_0_0

def zero1 : Vec F S1x1024 .f32 := View.canon [⟨ra1, k1_pay1 (F := F)⟩]

def step1 (x : Vec F S1x512 .f32) (s : Vec F S1x1024 .f32) (w : Vec F S512x1024 .bf16) : Vec F S1x1024 .f32 :=
  View.canon [⟨ra1, k1_pay2 (View.ld x rx1) (View.ld s ra1) (View.ld w rw1)⟩]

def acc1 (c : Dev nD) : (n : ℕ) → n < cfg1.N → Vec F S1x1024 .f32
  | 0, hn => step1 (iblk1 V c 0 ⟨0, hn⟩) zero1 (iblk1 V c 1 ⟨0, hn⟩)
  | n + 1, hn =>
    if (n + 1) % 8 = 0 then step1 (iblk1 V c 0 ⟨n + 1, hn⟩) zero1 (iblk1 V c 1 ⟨n + 1, hn⟩)
    else step1 (iblk1 V c 0 ⟨n + 1, hn⟩) (acc1 c n (Nat.lt_of_succ_lt hn)) (iblk1 V c 1 ⟨n + 1, hn⟩)

theorem acc1_reset (c : Dev nD) (t : Fin cfg1.N) (h : t.val % 8 = 0) :
    acc1 V c t.val t.isLt = View.canon [⟨ra1, k1_pay2 (View.ld (iblk1 V c 0 t) rx1) (View.ld (View.canon [⟨ra1, k1_pay1 (F := F)⟩]) ra1) (View.ld (iblk1 V c 1 t) rw1)⟩] := by
  obtain ⟨n, hn⟩ := t
  cases n with
  | zero => rfl
  | succ n => exact (if_pos h).trans rfl

theorem acc1_step (c : Dev nD) (t : Fin cfg1.N) (h : t.val % 8 ≠ 0) :
    acc1 V c t.val t.isLt = View.canon [⟨ra1, k1_pay2 (View.ld (iblk1 V c 0 t) rx1) (View.ld (acc1 V c (t.val - 1) (by omega)) ra1) (View.ld (iblk1 V c 1 t) rw1)⟩] := by
  obtain ⟨n, hn⟩ := t
  cases n with
  | zero => exact absurd (Nat.zero_mod _) h
  | succ n => exact (if_neg h).trans rfl

def PhiS1 (c : Dev nD) : (n : ℕ) → n ≤ cfg1.N → sProp 𝕄
  | 0, _ => Pipeline.ΦA spec1 c
  | n + 1, hn => iprop(owns (c : Thread nD τ) (Memref.whole cc1_scratch0 : Memref sig .tc .vmem S1x1024 .f32) fullShare (acc1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

abbrev cond1 (i : grid1.Coords) : Prop :=
  (Scalar.cmpi .ne (Scalar.extui (Scalar.cmpi .eq (BitVec.ofNat 32 (i 1).val) 0#32)) 0#32) = 1#1

theorem hcond1 : ∀ t : Fin cfg1.N, cond1 (grid1.coords t) ↔ t.val % 8 = 0 :=
  (by decide +kernel : ∀ t : Fin grid1.N, cond1 (grid1.coords t) ↔ t.val % 8 = 0)

theorem cover1 (p0 : Vec F S1x1024 .f32) (y : S1x1024.Idx) :
    ∃ pc ∈ ([⟨ra1, p0⟩] : List (View.Piece (Elt F) S1x1024 .f32)), y ∈ pc.1.set :=
  View.cover_of_tiled [⟨ra1, p0⟩] S1x1024.size (by rfl) y

theorem cover1' (p0 p1 : Vec F S1x1024 .f32) (y : S1x1024.Idx) :
    ∃ pc ∈ ([⟨ra1, p0⟩, ⟨ra1, p1⟩] : List (View.Piece (Elt F) S1x1024 .f32)), y ∈ pc.1.set := by
  obtain ⟨pc, hm, hy⟩ := cover1 p0 y
  exact ⟨pc, List.mem_cons.mpr (Or.inl (List.mem_singleton.mp hm)), hy⟩

theorem canon_whole1 (P : Vec F S1x1024 .f32) (L : List (View.Piece (Elt F) S1x1024 .f32)) :
    View.canon (⟨ra1, P⟩ :: L) = View.canon [⟨ra1, P⟩] := by
  funext y
  obtain ⟨pc, hm, hy⟩ := cover1 P y
  obtain rfl := List.mem_singleton.mp hm
  obtain ⟨x, rfl⟩ := ra1.exists_idx_of_mem hy
  exact (View.canon_cons_emb ra1 P L x).trans (View.canon_cons_emb ra1 P [] x).symm

theorem ld_canon1 (P : Vec F S1x1024 .f32) (L : List (View.Piece (Elt F) S1x1024 .f32)) :
    View.ld (View.canon (⟨ra1, P⟩ :: L)) ra1 = P :=
  funext fun x => View.canon_cons_emb ra1 P L x

set_option maxHeartbeats 1000000 in

theorem sound_kernel1_reset (c : Dev nD) (E : Set ℕ) (i : grid1.Coords) (hc : cond1 i)
    (arg2 : Memref sig .tc .vmem S1x512 .f32) (harg2 : arg2.IsWhole) (arg3 : Memref sig .tc .vmem S512x1024 .bf16) (harg3 : arg3.IsWhole)
    (arg4 : Memref sig .tc .vmem S1x1024 .f32) (harg4 : arg4.IsWhole) (arg5 : Memref sig .tc .vmem S1x1024 .f32) (harg5 : arg5.IsWhole)
    (x : Vec F S1x512 .f32) (w : Vec F S512x1024 .bf16) (K : PUnit → sProp 𝕄) :
    iprop(owns (c : Thread nD τ) arg2 fullShare x ∗ owns (c : Thread nD τ) arg3 fullShare w
        ∗ (∃ d, owns (c : Thread nD τ) arg4 fullShare d) ∗ (∃ s, owns (c : Thread nD τ) arg5 fullShare s)
        ∗ (iprop(owns (c : Thread nD τ) arg2 fullShare x ∗ owns (c : Thread nD τ) arg3 fullShare w
            ∗ owns (c : Thread nD τ) arg4 fullShare (step1 x zero1 w) ∗ owns (c : Thread nD τ) arg5 fullShare (step1 x zero1 w)) -∗ K ⟨⟩))
      ⊢ wp frame (wpE (defs₀ (F := F)) Variants.none c none) E (cc1__accum_kernel i arg2 harg2 arg3 harg3 arg4 harg4 arg5 harg5) K := by
  simp only [cc1__accum_kernel_eq_skeleton]; unfold cc1__accum_kernel_skel
  unfold owns
  iintro ⟨⟨%f2, %hf2, H2⟩, ⟨%f3, %hf3, H3⟩, ⟨%d4, %f4, -, H4⟩, ⟨%s5, %f5, -, H5⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _)]
    unfold sound_kernel1_reset.sl.v14 sound_kernel1_reset.sl.H5_2 sound_kernel1_reset.sl.v6 sound_kernel1_reset.sl.H5_1
    rw [View.readCov_eq_canon_ld _ _ ra1 (cover1' _ _), ld_canon1, View.readCov_eq_canon_ld _ _ ra1 (cover1 _)]
    unfold step1 zero1
    simp only [View.readAt_eq_ld] <;> rfl
  iexists _; isplitr
  swap; · iexact H5
  ipureintro
  unfold sound_kernel1_reset.sl.H5_2 sound_kernel1_reset.sl.v6 sound_kernel1_reset.sl.H5_1
  rw [View.read_writes_eq_canon _ _ _ (cover1' _ _), canon_whole1 _ [⟨ra1, k1_pay1 (F := F)⟩], View.readCov_eq_canon_ld _ _ ra1 (cover1 _)]
  unfold step1 zero1
  simp only [View.readAt_eq_ld] <;> rfl

set_option maxHeartbeats 1000000 in

theorem sound_kernel1_step (c : Dev nD) (E : Set ℕ) (i : grid1.Coords) (hc : ¬cond1 i)
    (arg2 : Memref sig .tc .vmem S1x512 .f32) (harg2 : arg2.IsWhole) (arg3 : Memref sig .tc .vmem S512x1024 .bf16) (harg3 : arg3.IsWhole)
    (arg4 : Memref sig .tc .vmem S1x1024 .f32) (harg4 : arg4.IsWhole) (arg5 : Memref sig .tc .vmem S1x1024 .f32) (harg5 : arg5.IsWhole)
    (x : Vec F S1x512 .f32) (s : Vec F S1x1024 .f32) (w : Vec F S512x1024 .bf16) (K : PUnit → sProp 𝕄) :
    iprop(owns (c : Thread nD τ) arg2 fullShare x ∗ owns (c : Thread nD τ) arg3 fullShare w
        ∗ (∃ d, owns (c : Thread nD τ) arg4 fullShare d) ∗ owns (c : Thread nD τ) arg5 fullShare s
        ∗ (iprop(owns (c : Thread nD τ) arg2 fullShare x ∗ owns (c : Thread nD τ) arg3 fullShare w
            ∗ owns (c : Thread nD τ) arg4 fullShare (step1 x s w) ∗ owns (c : Thread nD τ) arg5 fullShare (step1 x s w)) -∗ K ⟨⟩))
      ⊢ wp frame (wpE (defs₀ (F := F)) Variants.none c none) E (cc1__accum_kernel i arg2 harg2 arg3 harg3 arg4 harg4 arg5 harg5) K := by
  simp only [cc1__accum_kernel_eq_skeleton]; unfold cc1__accum_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _)]
    unfold sound_kernel1_step.sl.v14 sound_kernel1_step.sl.H5_1
    rw [View.readCov_eq_canon_ld _ _ ra1 (cover1 _), ld_canon1]
    unfold step1
    simp only [View.readAt_eq_ld] <;> rfl
  iexists _; isplitr
  swap; · iexact H5
  ipureintro
  unfold sound_kernel1_step.sl.H5_1
  rw [View.read_writes_eq_canon _ _ _ (cover1 _)]
  unfold step1
  simp only [View.readAt_eq_ld] <;> rfl

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

abbrev scM1 : Memref sig .tc .vmem S1x1024 .f32 := Memref.whole cc1_scratch0

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem acc1_reset' (c : Dev nD) (t : Fin cfg1.N) (h : t.val % 8 = 0) :
    acc1 V c t.val t.isLt = step1 (iblk1 V c 0 t) zero1 (iblk1 V c 1 t) := by
  obtain ⟨n, hn⟩ := t
  cases n with
  | zero => rfl
  | succ n => exact (if_pos h).trans rfl
theorem acc1_step' (c : Dev nD) (t : Fin cfg1.N) (h : t.val % 8 ≠ 0) :
    acc1 V c t.val t.isLt = step1 (iblk1 V c 0 t) (acc1 V c (t.val - 1) (by omega)) (iblk1 V c 1 t) := by
  obtain ⟨n, hn⟩ := t
  cases n with
  | zero => exact absurd (Nat.zero_mod _) h
  | succ n => exact (if_neg h).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_2, PhiS1_castSucc]
  by_cases h0 : t.val % 8 = 0
  · rw [acc1_reset' V c t h0]
    by_cases hz : t.val = 0
    · rw [PhiS1_zero V c _ _ hz, PhiA1_eq]
      iintro ⟨⟨⟨HS, HR⟩, Hg⟩, Ho, ⟨%d0, H0⟩, ⟨%d1, H1⟩, ⟨%d2, H2⟩⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS1_pos V c _ _ hz]
      iintro ⟨⟨HS, HR, Hg⟩, Ho, ⟨%d0, H0⟩, ⟨%d1, H1⟩, ⟨%d2, H2⟩⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · have hz : t.val ≠ 0 := fun h => h0 (by rw [h])
    rw [acc1_step' V c t h0, PhiS1_pos V c _ _ hz]
    iintro ⟨⟨HS, HR, Hg⟩, Ho, ⟨%d0, H0⟩, ⟨%d1, H1⟩, ⟨%d2, H2⟩⟩
    iapply (sound_kernel1_step c Set.univ _ (fun h => h0 ((hcond1 t).mp h)) _ _ _ _ _ _ _ _ (iblk1 V c 0 t) _ (iblk1 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]; · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Reg2.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S1x4096 := Rect.unit (s := S1x4096) ![0, 0] S1x4096.size inb_S1x4096_S1x4096_0_0
abbrev rw2 : Rect S512x4096 := Rect.unit (s := S512x4096) ![0, 0] S512x4096.size inb_S512x4096_S512x4096_0_0
abbrev rb2 : Rect S1x512 := Rect.unit (s := S1x512) ![0, 0] S1x512.size inb_S1x512_S1x512_0_0

def out2 (x : Vec F S1x4096 .f32) (w : Vec F S512x4096 .bf16) (b : Vec F S1x512 .f32) : Vec F S1x512 .f32 :=
  View.canon [⟨rb2, k2_pay1 (View.ld x rx2) (View.ld w rw2) (View.ld b rb2)⟩]

theorem cover2 (p0 : Vec F S1x512 .f32) (y : S1x512.Idx) :
    ∃ pc ∈ ([⟨rb2, p0⟩] : List (View.Piece (Elt F) S1x512 .f32)), y ∈ pc.1.set :=
  View.cover_of_tiled [⟨rb2, p0⟩] S1x512.size (by rfl) y

set_option maxHeartbeats 1000000 in

theorem sound_kernel2 (c : Dev nD) (E : Set ℕ) (i : grid2.Coords)
    (arg1 : Memref sig .tc .vmem S1x4096 .f32) (harg1 : arg1.IsWhole) (arg2 : Memref sig .tc .vmem S512x4096 .bf16) (harg2 : arg2.IsWhole)
    (arg3 : Memref sig .tc .vmem S1x512 .f32) (harg3 : arg3.IsWhole) (arg4 : Memref sig .tc .vmem S1x512 .f32) (harg4 : arg4.IsWhole)
    (x : Vec F S1x4096 .f32) (w : Vec F S512x4096 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out2 x w b)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KI.Reg3.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev rx3 : Rect S1x2048 := Rect.unit (s := S1x2048) ![0, 0] S1x2048.size inb_S1x2048_S1x2048_0_0
abbrev rw3 : Rect S512x2048 := Rect.unit (s := S512x2048) ![0, 0] S512x2048.size inb_S512x2048_S512x2048_0_0
abbrev rb3 : Rect S1x512 := Rect.unit (s := S1x512) ![0, 0] S1x512.size inb_S1x512_S1x512_0_0

def out3_6 (x : Vec F S1x2048 .f32) (w : Vec F S512x2048 .bf16) (b : Vec F S1x512 .f32) : Vec F S1x512 .f32 :=
  View.canon [⟨rb3, k3_pay1 (View.ld x rx3) (View.ld w rw3) (View.ld b rb3)⟩]

def out3_7 (h : Vec F S1x2048 .f32) (w : Vec F S512x2048 .bf16) (b : Vec F S1x512 .f32) : Vec F S1x512 .f32 :=
  View.canon [⟨rb3, k3_pay2 (View.ld h rx3) (View.ld w rw3) (View.ld b rb3)⟩]

theorem cover3 (p0 : Vec F S1x512 .f32) (y : S1x512.Idx) :
    ∃ pc ∈ ([⟨rb3, p0⟩] : List (View.Piece (Elt F) S1x512 .f32)), y ∈ pc.1.set :=
  View.cover_of_tiled [⟨rb3, p0⟩] S1x512.size (by rfl) y

set_option maxHeartbeats 1000000 in

theorem sound_kernel3 (c : Dev nD) (E : Set ℕ) (i : grid3.Coords)
    (arg1 : Memref sig .tc .vmem S1x2048 .f32) (harg1 : arg1.IsWhole) (arg2 : Memref sig .tc .vmem S1x2048 .f32) (harg2 : arg2.IsWhole)
    (arg3 : Memref sig .tc .vmem S512x2048 .bf16) (harg3 : arg3.IsWhole) (arg4 : Memref sig .tc .vmem S512x2048 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x h : Vec F S1x2048 .f32) (wi wh : Vec F S512x2048 .bf16) (bi bh : Vec F S1x512 .f32) (K : PUnit → sProp 𝕄) :
    iprop(owns (c : Thread nD τ) arg1 fullShare x ∗ owns (c : Thread nD τ) arg2 fullShare h
        ∗ owns (c : Thread nD τ) arg3 fullShare wi ∗ owns (c : Thread nD τ) arg4 fullShare wh
        ∗ owns (c : Thread nD τ) arg5 fullShare bi ∗ owns (c : Thread nD τ) arg6 fullShare bh
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h
            ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg7 fullShare (out3_6 x wi bi)
            ∗ owns (c : Thread nD τ) arg8 fullShare (out3_7 h wh bh)) -∗ K ⟨⟩))
      ⊢ wp frame (wpE (defs₀ (F := F)) Variants.none c none) E
          (cc3__gru_gates_kernel i arg1 harg1 arg2 harg2 arg3 harg3 arg4 harg4 arg5 harg5 arg6 harg6 arg7 harg7 arg8 harg8) K := by
  simp only [cc3__gru_gates_kernel_eq_skeleton]; unfold cc3__gru_gates_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 2 t) (iblk3 V c 4 t)
    | ⟨7, _⟩ => out3_7 (iblk3 V c 1 t) (iblk3 V c 3 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 2 t) (iblk3 V c 4 t) := by dsimp only [dat3]
theorem after3_7 (c : Dev nD) (t : Fin cfg3.N) :
    (dat3 V c).after 7 t = out3_7 (iblk3 V c 1 t) (iblk3 V c 3 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.Reg4.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev rx4 : Rect S1x2048 := Rect.unit (s := S1x2048) ![0, 0] S1x2048.size inb_S1x2048_S1x2048_0_0
abbrev rw4 : Rect S512x2048 := Rect.unit (s := S512x2048) ![0, 0] S512x2048.size inb_S512x2048_S512x2048_0_0
abbrev rb4 : Rect S1x512 := Rect.unit (s := S1x512) ![0, 0] S1x512.size inb_S1x512_S1x512_0_0

def out4 (x : Vec F S1x2048 .f32) (w : Vec F S512x2048 .bf16) (b : Vec F S1x512 .f32) : Vec F S1x512 .f32 :=
  View.canon [⟨rb4, k4_pay1 (View.ld x rx4) (View.ld w rw4) (View.ld b rb4)⟩]

theorem cover4 (p0 : Vec F S1x512 .f32) (y : S1x512.Idx) :
    ∃ pc ∈ ([⟨rb4, p0⟩] : List (View.Piece (Elt F) S1x512 .f32)), y ∈ pc.1.set :=
  View.cover_of_tiled [⟨rb4, p0⟩] S1x512.size (by rfl) y

set_option maxHeartbeats 1000000 in

theorem sound_kernel4 (c : Dev nD) (E : Set ℕ) (i : grid4.Coords)
    (arg1 : Memref sig .tc .vmem S1x2048 .f32) (harg1 : arg1.IsWhole) (arg2 : Memref sig .tc .vmem S512x2048 .bf16) (harg2 : arg2.IsWhole)
    (arg3 : Memref sig .tc .vmem S1x512 .f32) (harg3 : arg3.IsWhole) (arg4 : Memref sig .tc .vmem S1x512 .f32) (harg4 : arg4.IsWhole)
    (x : Vec F S1x2048 .f32) (w : Vec F S512x2048 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out4 x w b)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Hand

end
-- ==== Proof.KI.Reg5.lean ====
import proofs.«416939_j18966575579384_3_alg».proof.Proof.Gen.KernelIdeal.Launch
import proofs.«416939_j18966575579384_3_alg».proof.Proof.Gen.KernelIdeal.Skeleton
import proofs.«416939_j18966575579384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev rx5 : Rect S1x8192 := Rect.unit (s := S1x8192) ![0, 0] S1x8192.size inb_S1x8192_S1x8192_0_0
abbrev rw5 : Rect S512x8192 := Rect.unit (s := S512x8192) ![0, 0] S512x8192.size inb_S512x8192_S512x8192_0_0
abbrev rb5 : Rect S1x512 := Rect.unit (s := S1x512) ![0, 0] S1x512.size inb_S1x512_S1x512_0_0

def out5 (x : Vec F S1x8192 .f32) (w : Vec F S512x8192 .bf16) (b : Vec F S1x512 .f32) : Vec F S1x512 .f32 :=
  View.canon [⟨rb5, k5_pay1 (View.ld x rx5) (View.ld w rw5) (View.ld b rb5)⟩]

theorem cover5 (p0 : Vec F S1x512 .f32) (y : S1x512.Idx) :
    ∃ pc ∈ ([⟨rb5, p0⟩] : List (View.Piece (Elt F) S1x512 .f32)), y ∈ pc.1.set :=
  View.cover_of_tiled [⟨rb5, p0⟩] S1x512.size (by rfl) y

set_option maxHeartbeats 1000000 in

theorem sound_kernel5 (c : Dev nD) (E : Set ℕ) (i : grid5.Coords)
    (arg1 : Memref sig .tc .vmem S1x8192 .f32) (harg1 : arg1.IsWhole) (arg2 : Memref sig .tc .vmem S512x8192 .bf16) (harg2 : arg2.IsWhole)
    (arg3 : Memref sig .tc .vmem S1x512 .f32) (harg3 : arg3.IsWhole) (arg4 : Memref sig .tc .vmem S1x512 .f32) (harg4 : arg4.IsWhole)
    (x : Vec F S1x8192 .f32) (w : Vec F S512x8192 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out5 x w b)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand

end
-- ==== Proof.KI.Run.lean ====
import proofs.«416939_j18966575579384_3_alg».proof.Proof.Gen.KernelIdeal.Launch
import proofs.«416939_j18966575579384_3_alg».proof.Proof.Gen.KernelIdeal.Regions
import proofs.«416939_j18966575579384_3_alg».proof.Proof.KI.Reg0
import proofs.«416939_j18966575579384_3_alg».proof.Proof.KI.Reg1
import proofs.«416939_j18966575579384_3_alg».proof.Proof.KI.Reg2
import proofs.«416939_j18966575579384_3_alg».proof.Proof.KI.Reg3
import proofs.«416939_j18966575579384_3_alg».proof.Proof.KI.Reg4
import proofs.«416939_j18966575579384_3_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)

-- A buffer that no host operation writes and that is no region's array ends as launched: walk the items back one by one.
theorem W13_of_unwritten (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r)
    (h5 : r ∉ hostOps5_W) (k5 : ∀ w, Pipeline.arrRef spec5 w ≠ r)
    (h6 : r ∉ hostOps6_W) :
    W13 m ρ c (Proc.devRef .tc r) = m ((c : Thread nD τ).loc r) :=
  calc W13 m ρ c (Proc.devRef .tc r)
    _ = W12 m ρ c (Proc.devRef .tc r) := StableHlo.after_of_writes_sub hostOps6 _ hostOps6_writes h6
    _ = W11 m ρ c (Proc.devRef .tc r) := W12_of_ne m ρ c r k5
    _ = W10 m ρ c (Proc.devRef .tc r) := StableHlo.after_of_writes_sub hostOps5 _ hostOps5_writes h5
    _ = W9 m ρ c (Proc.devRef .tc r) := W10_of_ne m ρ c r k4
    _ = W8 m ρ c (Proc.devRef .tc r) := StableHlo.after_of_writes_sub hostOps4 _ hostOps4_writes h4
    _ = W7 m ρ c (Proc.devRef .tc r) := W8_of_ne m ρ c r k3
    _ = W6 m ρ c (Proc.devRef .tc r) := StableHlo.after_of_writes_sub hostOps3 _ hostOps3_writes h3
    _ = W5 m ρ c (Proc.devRef .tc r) := W6_of_ne m ρ c r k2
    _ = W4 m ρ c (Proc.devRef .tc r) := StableHlo.after_of_writes_sub hostOps2 _ hostOps2_writes h2
    _ = W3 m ρ c (Proc.devRef .tc r) := W4_of_ne m ρ c r k1
    _ = W2 m ρ c (Proc.devRef .tc r) := StableHlo.after_of_writes_sub hostOps1 _ hostOps1_writes h1
    _ = W1 m ρ c (Proc.devRef .tc r) := W2_of_ne m ρ c r k0
    _ = W0 m ρ c (Proc.devRef .tc r) := StableHlo.after_of_writes_sub hostOps0 _ hostOps0_writes h0
    _ = m ((c : Thread nD τ).loc r) := rfl

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

-- No host operation writes an argument and none is a window's array of a region.
theorem W13_arg (c : Dev nD) (r : Ref sig .tc) (h : r ∈ mainArgs) :
    W13 m ρ c (Proc.devRef .tc r) = m ((c : Thread nD τ).loc r) :=
  W13_of_unwritten m ρ c r ((by decide : ∀ r ∈ mainArgs, r ∉ hostOps0_W) r h) ((by decide : ∀ r ∈ mainArgs, ∀ w, Pipeline.arrRef spec0 w ≠ r) r h) ((by decide : ∀ r ∈ mainArgs, r ∉ hostOps1_W) r h) ((by decide : ∀ r ∈ mainArgs, ∀ w, Pipeline.arrRef spec1 w ≠ r) r h)
    ((by decide : ∀ r ∈ mainArgs, r ∉ hostOps2_W) r h) ((by decide : ∀ r ∈ mainArgs, ∀ w, Pipeline.arrRef spec2 w ≠ r) r h) ((by decide : ∀ r ∈ mainArgs, r ∉ hostOps3_W) r h) ((by decide : ∀ r ∈ mainArgs, ∀ w, Pipeline.arrRef spec3 w ≠ r) r h)
    ((by decide : ∀ r ∈ mainArgs, r ∉ hostOps4_W) r h) ((by decide : ∀ r ∈ mainArgs, ∀ w, Pipeline.arrRef spec4 w ≠ r) r h) ((by decide : ∀ r ∈ mainArgs, r ∉ hostOps5_W) r h) ((by decide : ∀ r ∈ mainArgs, ∀ w, Pipeline.arrRef spec5 w ≠ r) r h)
    ((by decide : ∀ r ∈ mainArgs, r ∉ hostOps6_W) r h)

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
-- At the end of the run an argument's buffer holds what the launch memory held.
theorem arg_kept (c : Dev nD) (mem : (ℓ : Loc nD τ sig) → Buf (Elt F) ℓ)
    (h : ∀ b ∈ Pipeline.ucRefs τ sig, mem (((c : Thread nD τ)).1, b) = W13 m ρ c b) (r : Ref sig .tc) (hr : r ∈ mainArgs) :
    mem ((c.tc : Thread nD τ).loc r) = m ((c.tc : Thread nD τ).loc r) :=
  (h _ (mem_uc r ((by decide : ∀ r ∈ mainArgs, ¬ (Proc.devRef .tc r : DevRef τ sig).isScoped) r hr))).trans (W13_arg m ρ c r hr)

abbrev Tₙ (c : Dev nD) : sProp 𝕄 := iprop(StableHlo.held (c : Thread nD τ) (Pipeline.ucRefs τ sig) (W13 m ρ c) ∗ ∃ r, prngReg c r)

theorem last_state (c : Dev nD) :
    iprop(StableHlo.held (c : Thread nD τ) (Pipeline.ucRefs τ sig) (W13 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    rw [Pipeline.ownSems0_none]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := by
  rw [main_chain c, Pipeline.Seg.run_eq_chain]
  rfl

set_option backward.isDefEq.respectTransparency.types false in

-- The run over the thirteen items ends with every buffer at the last contents of the fold.
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨arg_kept m ρ c _ (h c) main_arg0 (by decide),
     arg_kept m ρ c _ (h c) main_arg1 (by decide),
     arg_kept m ρ c _ (h c) main_arg2 (by decide),
     arg_kept m ρ c _ (h c) main_arg3 (by decide),
     arg_kept m ρ c _ (h c) main_arg4 (by decide),
     arg_kept m ρ c _ (h c) main_arg5 (by decide),
     arg_kept m ρ c _ (h c) main_arg6 (by decide),
     arg_kept m ρ c _ (h c) main_arg7 (by decide),
     arg_kept m ρ c _ (h c) main_arg8 (by decide),
     arg_kept m ρ c _ (h c) main_arg9 (by decide),
     arg_kept m ρ c _ (h c) main_arg10 (by decide),
     arg_kept m ρ c _ (h c) main_arg11 (by decide),
     arg_kept m ρ c _ (h c) main_arg12 (by decide),
     arg_kept m ρ c _ (h c) main_arg13 (by decide),
     arg_kept m ρ c _ (h c) main_arg14 (by decide),
     arg_kept m ρ c _ (h c) main_arg15 (by decide),
     arg_kept m ρ c _ (h c) main_arg16 (by decide),
     arg_kept m ρ c _ (h c) main_arg17 (by decide)⟩)
    (run_all m ρ)

end Cert.KernelIdeal.Hand

end
-- ==== Proof.Val.Stages.lean ====
import proofs.«416939_j18966575579384_3_alg».proof.Proof.Gen.KernelIdeal.Launch
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe
open Idealize.SL Idealize.SL.Sem

variable {F : FTy → Type} [FloatOps F]

def stTok (tok : (⟨S64, .i32⟩ : BufTy).Contents (Elt F)) : (⟨S64, .i32⟩ : BufTy).Contents (Elt F) :=
  select (cmpi .slt tok (broadcastInDim S64 ![] bcast_S_S64 (constantI S_ 32 0#32)))
    (addi tok (broadcastInDim S64 ![] bcast_S_S64 (constantI S_ 32 8192#32))) tok

def stEmbed (tok : (⟨S64, .i32⟩ : BufTy).Contents (Elt F)) (emb : (⟨S8192x2048, .f32⟩ : BufTy).Contents (Elt F)) : (⟨S1x2048, .f32⟩ : BufTy).Contents (Elt F) :=
  Host.divf
    (broadcastInDim S1x2048 ![1] bcast_S2048_S1x2048_1
      (Host.reduceAdd
        (Host.gather gather_S8192x2048_S64x1_S64x2048_1_0_n_n_0_1_12048 emb
          (broadcastInDim S64x1 ![0] bcast_S64_S64x1_0 (stTok (F := F) tok)))
        (constant (F := F) S_ .f32 0x00000000#32) reducesTo_S64x2048_S2048_d0 h_S_))
    (broadcastInDim S1x2048 ![] bcast_S_S1x2048 (constant (F := F) S_ .f32 0x42800000#32))

def stCat (a b : (⟨S1x2048, .f32⟩ : BufTy).Contents (Elt F)) : (⟨S1x4096, .f32⟩ : BufTy).Contents (Elt F) :=
  concatenate S1x4096 1 [⟨S1x2048, a⟩, ⟨S1x2048, b⟩] concatenates_S1x2048_S1x2048_S1x4096_d1

def stSoftmaxExp (y : (⟨S1x4096, .f32⟩ : BufTy).Contents (Elt F)) : (⟨S1x4096, .f32⟩ : BufTy).Contents (Elt F) :=
  Host.exp (subf y
    (broadcastInDim S1x4096 ![0, 1] bcast_S1x1_S1x4096_0_1 (broadcastInDim S1x1 ![0] bcast_S1_S1x1_0
      (maximumf (broadcastInDim S1 ![] bcast_S_S1 (constant (F := F) S_ .f32 0xFF800000#32))
        (Host.reduce FloatOps.maximumf y (constant (F := F) S_ .f32 0xFF800000#32) reducesTo_S1x4096_S1_d1 h_S_)))))

def stSoftmax (y : (⟨S1x4096, .f32⟩ : BufTy).Contents (Elt F)) : (⟨S1x4096, .f32⟩ : BufTy).Contents (Elt F) :=
  Host.divf (stSoftmaxExp y)
    (broadcastInDim S1x4096 ![0, 1] bcast_S1x1_S1x4096_0_1 (broadcastInDim S1x1 ![0] bcast_S1_S1x1_0
      (Host.reduceAdd (stSoftmaxExp y) (constant (F := F) S_ .f32 0x00000000#32) reducesTo_S1x4096_S1_d1 h_S_)))

def stOnes : (⟨S1x2048, .f32⟩ : BufTy).Contents (Elt F) :=
  broadcastInDim S1x2048 ![] bcast_S_S1x2048 (constant (F := F) S_ .f32 0x3F800000#32)

def stGate (a b : (⟨S1x2048, .f32⟩ : BufTy).Contents (Elt F)) : (⟨S1x2048, .f32⟩ : BufTy).Contents (Elt F) :=
  Host.divf (stOnes (F := F)) (addf (stOnes (F := F)) (Host.exp (Host.negf (addf a b))))

def stGru (gi gh : (⟨S1x6144, .f32⟩ : BufTy).Contents (Elt F)) (h0 : (⟨S1x2048, .f32⟩ : BufTy).Contents (Elt F)) : (⟨S1x2048, .f32⟩ : BufTy).Contents (Elt F) :=
  addf
    (mulf
      (subf (stOnes (F := F))
        (stGate (extractStridedSlice S1x2048 ![0, 2048] gi slices_S1x6144_S1x2048_0_2048)
          (extractStridedSlice S1x2048 ![0, 2048] gh slices_S1x6144_S1x2048_0_2048)))
      (Host.tanh (addf (extractStridedSlice S1x2048 ![0, 4096] gi slices_S1x6144_S1x2048_0_4096)
        (mulf
          (stGate (extractStridedSlice S1x2048 ![0, 0] gi slices_S1x6144_S1x2048_0_0)
            (extractStridedSlice S1x2048 ![0, 0] gh slices_S1x6144_S1x2048_0_0))
          (extractStridedSlice S1x2048 ![0, 4096] gh slices_S1x6144_S1x2048_0_4096)))))
    (mulf
      (stGate (extractStridedSlice S1x2048 ![0, 2048] gi slices_S1x6144_S1x2048_0_2048)
        (extractStridedSlice S1x2048 ![0, 2048] gh slices_S1x6144_S1x2048_0_2048))
      h0)

def stBlend (lin value hist : (⟨S1x8192, .f32⟩ : BufTy).Contents (Elt F)) : (⟨S1x8192, .f32⟩ : BufTy).Contents (Elt F) :=
  addf
    (mulf lin
      (subf (broadcastInDim S1x8192 ![] bcast_S_S1x8192 (constant (F := F) S_ .f32 0x3F800000#32))
        (mulf (uitofp .f32 (cmpf .une hist (broadcastInDim S1x8192 ![] bcast_S_S1x8192 (constant (F := F) S_ .f32 0x00000000#32))))
          value)))
    (mulf hist value)

def stFinalExp (u : (⟨S1x8192, .f32⟩ : BufTy).Contents (Elt F)) : (⟨S1x8192, .f32⟩ : BufTy).Contents (Elt F) :=
  Host.exp (subf u
    (broadcastInDim S1x8192 ![0, 1] bcast_S1x1_S1x8192_0_1 (broadcastInDim S1x1 ![0] bcast_S1_S1x1_0
      (maximumf (broadcastInDim S1 ![] bcast_S_S1 (constant (F := F) S_ .f32 0xFF800000#32))
        (Host.reduce FloatOps.maximumf u (constant (F := F) S_ .f32 0xFF800000#32) reducesTo_S1x8192_S1_d1 h_S_)))))

def stFinal (lin value hist : (⟨S1x8192, .f32⟩ : BufTy).Contents (Elt F)) : (⟨S1x8192, .f32⟩ : BufTy).Contents (Elt F) :=
  Host.divf (stFinalExp (stBlend lin value hist))
    (broadcastInDim S1x8192 ![0, 1] bcast_S1x1_S1x8192_0_1 (broadcastInDim S1x1 ![0] bcast_S1_S1x1_0
      (Host.reduceAdd (stFinalExp (stBlend lin value hist)) (constant (F := F) S_ .f32 0x00000000#32) reducesTo_S1x8192_S1_d1 h_S_)))

def stOut1 (h : (⟨S1x2048, .f32⟩ : BufTy).Contents (Elt F)) : (⟨S1x1x2048, .f32⟩ : BufTy).Contents (Elt F) :=
  broadcastInDim S1x1x2048 ![1, 2] bcast_S1x2048_S1x1x2048_1_2 h

theorem after0_v0 (W : Valuation τ sig (Elt F)) :
    StableHlo.after (hostOps0 (F := F)) W (Proc.devRef .tc main_v0) = shapeCast S1x2048 (W (Proc.devRef .tc main_arg1)) shapeCasts_S1x1x2048_S1x2048 := by
  after_results <;> rfl
theorem after0_v11 (W : Valuation τ sig (Elt F)) :
    StableHlo.after (hostOps0 (F := F)) W (Proc.devRef .tc main_v11) = stEmbed (W (Proc.devRef .tc main_arg0)) (W (Proc.devRef .tc main_arg5)) := by
  after_results <;> rfl
theorem after0_v19 (W : Valuation τ sig (Elt F)) :
    StableHlo.after (hostOps0 (F := F)) W (Proc.devRef .tc main_v19) = stCat (stEmbed (W (Proc.devRef .tc main_arg0)) (W (Proc.devRef .tc main_arg5))) (shapeCast S1x2048 (W (Proc.devRef .tc main_arg1)) shapeCasts_S1x1x2048_S1x2048) := by
  after_results_simp <;> rfl
theorem after0_v12 (W : Valuation τ sig (Elt F)) :
    StableHlo.after (hostOps0 (F := F)) W (Proc.devRef .tc main_v12) = truncf .bf16 (W (Proc.devRef .tc main_arg6)) bitsLt_bf16_f32 := by
  after_results <;> rfl
theorem after0_v13 (W : Valuation τ sig (Elt F)) :
    StableHlo.after (hostOps0 (F := F)) W (Proc.devRef .tc main_v13) = truncf .bf16 (W (Proc.devRef .tc main_arg8)) bitsLt_bf16_f32 := by
  after_results <;> rfl
theorem after0_v14 (W : Valuation τ sig (Elt F)) :
    StableHlo.after (hostOps0 (F := F)) W (Proc.devRef .tc main_v14) = truncf .bf16 (W (Proc.devRef .tc main_arg10)) bitsLt_bf16_f32 := by
  after_results <;> rfl
theorem after0_v15 (W : Valuation τ sig (Elt F)) :
    StableHlo.after (hostOps0 (F := F)) W (Proc.devRef .tc main_v15) = truncf .bf16 (W (Proc.devRef .tc main_arg11)) bitsLt_bf16_f32 := by
  after_results <;> rfl
theorem after0_v16 (W : Valuation τ sig (Elt F)) :
    StableHlo.after (hostOps0 (F := F)) W (Proc.devRef .tc main_v16) = truncf .bf16 (W (Proc.devRef .tc main_arg14)) bitsLt_bf16_f32 := by
  after_results <;> rfl
theorem after0_v17 (W : Valuation τ sig (Elt F)) :
    StableHlo.after (hostOps0 (F := F)) W (Proc.devRef .tc main_v17) = truncf .bf16 (W (Proc.devRef .tc main_arg16)) bitsLt_bf16_f32 := by
  after_results <;> rfl
theorem after0_v18 (W : Valuation τ sig (Elt F)) :
    StableHlo.after (hostOps0 (F := F)) W (Proc.devRef .tc main_v18) = truncf .bf16 (W (Proc.devRef .tc main_arg2)) bitsLt_bf16_f32 := by
  after_results <;> rfl
theorem after0_v20 (W : Valuation τ sig (Elt F)) :
    StableHlo.after (hostOps0 (F := F)) W (Proc.devRef .tc main_v20) = shapeCast S1x4096 (W (Proc.devRef .tc main_arg7)) shapeCasts_S4096_S1x4096 := by
  after_results <;> rfl

theorem after1_v32 (W : Valuation τ sig (Elt F)) :
    StableHlo.after (hostOps1 (F := F)) W (Proc.devRef .tc main_v32) = stSoftmax (W (Proc.devRef .tc main_v21)) := by
  after_results <;> rfl

theorem after2_v34 (W : Valuation τ sig (Elt F)) :
    StableHlo.after (hostOps2 (F := F)) W (Proc.devRef .tc main_v34) = stCat (W (Proc.devRef .tc main_v11)) (W (Proc.devRef .tc main_v33)) := by
  after_results <;> rfl
theorem after2_v35 (W : Valuation τ sig (Elt F)) :
    StableHlo.after (hostOps2 (F := F)) W (Proc.devRef .tc main_v35) = shapeCast S1x2048 (W (Proc.devRef .tc main_arg9)) shapeCasts_S2048_S1x2048 := by
  after_results <;> rfl

theorem after3_v37 (W : Valuation τ sig (Elt F)) :
    StableHlo.after (hostOps3 (F := F)) W (Proc.devRef .tc main_v37) = shapeCast S1x6144 (W (Proc.devRef .tc main_arg12)) shapeCasts_S6144_S1x6144 := by
  after_results <;> rfl
theorem after3_v38 (W : Valuation τ sig (Elt F)) :
    StableHlo.after (hostOps3 (F := F)) W (Proc.devRef .tc main_v38) = shapeCast S1x6144 (W (Proc.devRef .tc main_arg13)) shapeCasts_S6144_S1x6144 := by
  after_results <;> rfl

theorem after4_v67 (W : Valuation τ sig (Elt F)) :
    StableHlo.after (hostOps4 (F := F)) W (Proc.devRef .tc main_v67) = stGru (W (Proc.devRef .tc main_v39_0)) (W (Proc.devRef .tc main_v39_1)) (W (Proc.devRef .tc main_v0)) := by
  after_results_simp <;> rfl
theorem after4_v68 (W : Valuation τ sig (Elt F)) :
    StableHlo.after (hostOps4 (F := F)) W (Proc.devRef .tc main_v68) = shapeCast S1x8192 (W (Proc.devRef .tc main_arg15)) shapeCasts_S8192_S1x8192 := by
  after_results <;> rfl

theorem after5_v70 (W : Valuation τ sig (Elt F)) :
    StableHlo.after (hostOps5 (F := F)) W (Proc.devRef .tc main_v70) = shapeCast S1x8192 (W (Proc.devRef .tc main_arg3)) shapeCasts_S8192_S1x8192 := by
  after_results <;> rfl
theorem after5_v71 (W : Valuation τ sig (Elt F)) :
    StableHlo.after (hostOps5 (F := F)) W (Proc.devRef .tc main_v71) = shapeCast S1x8192 (W (Proc.devRef .tc main_arg17)) shapeCasts_S8192_S1x8192 := by
  after_results <;> rfl

theorem after6_v92 (W : Valuation τ sig (Elt F)) :
    StableHlo.after (hostOps6 (F := F)) W (Proc.devRef .tc main_v92) = stFinal (W (Proc.devRef .tc main_v69)) (W (Proc.devRef .tc main_v72)) (W (Proc.devRef .tc main_v70)) := by
  after_results_simp <;> rfl
theorem after6_v93 (W : Valuation τ sig (Elt F)) :
    StableHlo.after (hostOps6 (F := F)) W (Proc.devRef .tc main_v93) = stOut1 (W (Proc.devRef .tc main_v67)) := by
  after_results <;> rfl

end Cert.KernelIdeal.Val
-- ==== Proof.Val.StagesRef.lean ====
import proofs.«416939_j18966575579384_3_alg».proof.Proof.Val.Stages
import proofs.«416939_j18966575579384_3_alg».proof.Proof.RefRead

set_option maxRecDepth 16384

noncomputable section

namespace Cert.KernelIdeal.Val

open Cert.KernelIdeal Cert.KernelIdeal.Gen
open Idealize.ShloMosaic Idealize.ShloMosaic.TcCoe

variable {F : FTy → Type} [FloatOps F]
variable (x0 : (⟨Cert.ReferenceIdeal.S64, .i32⟩ : BufTy).Contents (Elt F))
  (x1 : (⟨Cert.ReferenceIdeal.S1x1x2048, .f32⟩ : BufTy).Contents (Elt F))
  (x2 : (⟨Cert.ReferenceIdeal.S4096x2048, .f32⟩ : BufTy).Contents (Elt F))
  (x3 : (⟨Cert.ReferenceIdeal.S8192, .f32⟩ : BufTy).Contents (Elt F))
  (x5 : (⟨Cert.ReferenceIdeal.S8192x2048, .f32⟩ : BufTy).Contents (Elt F))
  (x6 : (⟨Cert.ReferenceIdeal.S4096x4096, .f32⟩ : BufTy).Contents (Elt F))
  (x7 : (⟨Cert.ReferenceIdeal.S4096, .f32⟩ : BufTy).Contents (Elt F))
  (x8 : (⟨Cert.ReferenceIdeal.S2048x4096, .f32⟩ : BufTy).Contents (Elt F))
  (x9 : (⟨Cert.ReferenceIdeal.S2048, .f32⟩ : BufTy).Contents (Elt F))
  (x10 : (⟨Cert.ReferenceIdeal.S6144x2048, .f32⟩ : BufTy).Contents (Elt F))
  (x11 : (⟨Cert.ReferenceIdeal.S6144x2048, .f32⟩ : BufTy).Contents (Elt F))
  (x12 : (⟨Cert.ReferenceIdeal.S6144, .f32⟩ : BufTy).Contents (Elt F))
  (x13 : (⟨Cert.ReferenceIdeal.S6144, .f32⟩ : BufTy).Contents (Elt F))
  (x14 : (⟨Cert.ReferenceIdeal.S8192x2048, .f32⟩ : BufTy).Contents (Elt F))
  (x15 : (⟨Cert.ReferenceIdeal.S8192, .f32⟩ : BufTy).Contents (Elt F))
  (x16 : (⟨Cert.ReferenceIdeal.S8192x8192, .f32⟩ : BufTy).Contents (Elt F))
  (x17 : (⟨Cert.ReferenceIdeal.S8192, .f32⟩ : BufTy).Contents (Elt F))

theorem ref_v10 :
    Cert.ReferenceIdeal.ReadP.val_main_v10 (F := F) x0 x5 = stEmbed x0 x5 := by
  unfold Cert.ReferenceIdeal.ReadP.val_main_v10 Cert.ReferenceIdeal.ReadP.val_main_v9 Cert.ReferenceIdeal.ReadP.val_main_cst_1 Cert.ReferenceIdeal.ReadP.val_main_v8 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_v2 Cert.ReferenceIdeal.ReadP.val_main_c_0 Cert.ReferenceIdeal.ReadP.val_main_v1 Cert.ReferenceIdeal.ReadP.val_main_v0 Cert.ReferenceIdeal.ReadP.val_main_c
  rfl

theorem ref_v12 :
    Cert.ReferenceIdeal.ReadP.val_main_v12 (F := F) x0 x1 x5 = stCat (stEmbed x0 x5) (Cert.ReferenceIdeal.ReadP.val_main_v11 (F := F) x1) := by
  unfold Cert.ReferenceIdeal.ReadP.val_main_v12
  rw [ref_v10] <;> rfl

theorem ref_v27 :
    Cert.ReferenceIdeal.ReadP.val_main_v27 (F := F) x0 x1 x5 x6 x7 = stSoftmax (Cert.ReferenceIdeal.ReadP.val_main_v16 (F := F) x0 x1 x5 x6 x7) := by
  unfold Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_cst_4 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_cst_3 Cert.ReferenceIdeal.ReadP.val_main_v17 Cert.ReferenceIdeal.ReadP.val_main_cst_2
  rfl

theorem ref_v29 :
    Cert.ReferenceIdeal.ReadP.val_main_v29 (F := F) x0 x1 x2 x5 x6 x7 = stCat (stEmbed x0 x5) (Cert.ReferenceIdeal.ReadP.val_main_v28 (F := F) x0 x1 x2 x5 x6 x7) := by
  unfold Cert.ReferenceIdeal.ReadP.val_main_v29
  rw [ref_v10] <;> rfl

theorem ref_v70 :
    Cert.ReferenceIdeal.ReadP.val_main_v70 (F := F) x0 x1 x2 x5 x6 x7 x8 x9 x10 x11 x12 x13 = stGru (Cert.ReferenceIdeal.ReadP.val_main_v38 (F := F) x0 x1 x2 x5 x6 x7 x8 x9 x10 x12) (Cert.ReferenceIdeal.ReadP.val_main_v42 (F := F) x1 x11 x13) (Cert.ReferenceIdeal.ReadP.val_main_v11 (F := F) x1) := by
  unfold Cert.ReferenceIdeal.ReadP.val_main_v70 Cert.ReferenceIdeal.ReadP.val_main_v69 Cert.ReferenceIdeal.ReadP.val_main_v68 Cert.ReferenceIdeal.ReadP.val_main_v67 Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_v55 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_v48 Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_cst_5 Cert.ReferenceIdeal.ReadP.val_main_cst_6 Cert.ReferenceIdeal.ReadP.val_main_cst_7 Cert.ReferenceIdeal.ReadP.val_main_cst_8 Cert.ReferenceIdeal.ReadP.val_main_cst_9
  rfl

theorem ref_v105 :
    Cert.ReferenceIdeal.ReadP.val_main_v105 (F := F) x0 x1 x2 x3 x5 x6 x7 x8 x9 x10 x11 x12 x13 x14 x15 x16 x17 = stFinal (Cert.ReferenceIdeal.ReadP.val_main_v74 (F := F) x0 x1 x2 x5 x6 x7 x8 x9 x10 x11 x12 x13 x14 x15) (Cert.ReferenceIdeal.ReadP.val_main_v85 (F := F) x3 x16 x17) (Cert.ReferenceIdeal.ReadP.val_main_v75 (F := F) x3) := by
  unfold Cert.ReferenceIdeal.ReadP.val_main_v105 Cert.ReferenceIdeal.ReadP.val_main_v104 Cert.ReferenceIdeal.ReadP.val_main_v103 Cert.ReferenceIdeal.ReadP.val_main_v102 Cert.ReferenceIdeal.ReadP.val_main_v101 Cert.ReferenceIdeal.ReadP.val_main_v100 Cert.ReferenceIdeal.ReadP.val_main_v99 Cert.ReferenceIdeal.ReadP.val_main_v98 Cert.ReferenceIdeal.ReadP.val_main_v97 Cert.ReferenceIdeal.ReadP.val_main_v96 Cert.ReferenceIdeal.ReadP.val_main_v95 Cert.ReferenceIdeal.ReadP.val_main_v94 Cert.ReferenceIdeal.ReadP.val_main_v93 Cert.ReferenceIdeal.ReadP.val_main_v92 Cert.ReferenceIdeal.ReadP.val_main_v91 Cert.ReferenceIdeal.ReadP.val_main_v90 Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_cst_12 Cert.ReferenceIdeal.ReadP.val_main_cst_13 Cert.ReferenceIdeal.ReadP.val_main_cst_14 Cert.ReferenceIdeal.ReadP.val_main_cst_15 Cert.ReferenceIdeal.ReadP.val_main_cst_16
  rfl

theorem ref_v106 :
    Cert.ReferenceIdeal.ReadP.val_main_v106 (F := F) x0 x1 x2 x5 x6 x7 x8 x9 x10 x11 x12 x13 = stOut1 (Cert.ReferenceIdeal.ReadP.val_main_v70 (F := F) x0 x1 x2 x5 x6 x7 x8 x9 x10 x11 x12 x13) := by
  unfold Cert.ReferenceIdeal.ReadP.val_main_v106
  rfl

end Cert.KernelIdeal.Val
-- ==== Proof.Val.Operands.lean ====
import proofs.«416939_j18966575579384_3_alg».proof.Proof.KI.Run
import proofs.«416939_j18966575579384_3_alg».proof.Proof.Val.Stages
import Idealize.ShloMosaic.Lib.StableHlo.Run
import Idealize.ShloMosaic.Lib.Pipeline.Cells

set_option maxRecDepth 16384

noncomputable section

namespace Cert.KernelIdeal.Val

open Cert.KernelIdeal Cert.KernelIdeal.Gen Cert.KernelIdeal.Hand
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem keep1 (c : Dev nD) (r : Ref sig .tc) (h0 : r ∉ hostOps0_W) :
    W1 m ρ c (Proc.devRef .tc r) = W0 m ρ c (Proc.devRef .tc r) :=
  StableHlo.after_of_writes_sub hostOps0 _ hostOps0_writes h0
theorem keep2 (c : Dev nD) (r : Ref sig .tc) (k0 : ∀ w, Pipeline.arrRef spec0 w ≠ r) :
    W2 m ρ c (Proc.devRef .tc r) = W1 m ρ c (Proc.devRef .tc r) :=
  W2_of_ne m ρ c r k0
theorem keep3 (c : Dev nD) (r : Ref sig .tc) (h1 : r ∉ hostOps1_W) :
    W3 m ρ c (Proc.devRef .tc r) = W2 m ρ c (Proc.devRef .tc r) :=
  StableHlo.after_of_writes_sub hostOps1 _ hostOps1_writes h1
theorem keep4 (c : Dev nD) (r : Ref sig .tc) (k1 : ∀ w, Pipeline.arrRef spec1 w ≠ r) :
    W4 m ρ c (Proc.devRef .tc r) = W3 m ρ c (Proc.devRef .tc r) :=
  W4_of_ne m ρ c r k1
theorem keep5 (c : Dev nD) (r : Ref sig .tc) (h2 : r ∉ hostOps2_W) :
    W5 m ρ c (Proc.devRef .tc r) = W4 m ρ c (Proc.devRef .tc r) :=
  StableHlo.after_of_writes_sub hostOps2 _ hostOps2_writes h2
theorem keep6 (c : Dev nD) (r : Ref sig .tc) (k2 : ∀ w, Pipeline.arrRef spec2 w ≠ r) :
    W6 m ρ c (Proc.devRef .tc r) = W5 m ρ c (Proc.devRef .tc r) :=
  W6_of_ne m ρ c r k2
theorem keep7 (c : Dev nD) (r : Ref sig .tc) (h3 : r ∉ hostOps3_W) :
    W7 m ρ c (Proc.devRef .tc r) = W6 m ρ c (Proc.devRef .tc r) :=
  StableHlo.after_of_writes_sub hostOps3 _ hostOps3_writes h3
theorem keep8 (c : Dev nD) (r : Ref sig .tc) (k3 : ∀ w, Pipeline.arrRef spec3 w ≠ r) :
    W8 m ρ c (Proc.devRef .tc r) = W7 m ρ c (Proc.devRef .tc r) :=
  W8_of_ne m ρ c r k3
theorem keep9 (c : Dev nD) (r : Ref sig .tc) (h4 : r ∉ hostOps4_W) :
    W9 m ρ c (Proc.devRef .tc r) = W8 m ρ c (Proc.devRef .tc r) :=
  StableHlo.after_of_writes_sub hostOps4 _ hostOps4_writes h4
theorem keep10 (c : Dev nD) (r : Ref sig .tc) (k4 : ∀ w, Pipeline.arrRef spec4 w ≠ r) :
    W10 m ρ c (Proc.devRef .tc r) = W9 m ρ c (Proc.devRef .tc r) :=
  W10_of_ne m ρ c r k4
theorem keep11 (c : Dev nD) (r : Ref sig .tc) (h5 : r ∉ hostOps5_W) :
    W11 m ρ c (Proc.devRef .tc r) = W10 m ρ c (Proc.devRef .tc r) :=
  StableHlo.after_of_writes_sub hostOps5 _ hostOps5_writes h5
theorem keep12 (c : Dev nD) (r : Ref sig .tc) (k5 : ∀ w, Pipeline.arrRef spec5 w ≠ r) :
    W12 m ρ c (Proc.devRef .tc r) = W11 m ρ c (Proc.devRef .tc r) :=
  W12_of_ne m ρ c r k5
theorem keep13 (c : Dev nD) (r : Ref sig .tc) (h6 : r ∉ hostOps6_W) :
    W13 m ρ c (Proc.devRef .tc r) = W12 m ρ c (Proc.devRef .tc r) :=
  StableHlo.after_of_writes_sub hostOps6 _ hostOps6_writes h6

theorem keepIn4 (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Hand.V3 m ρ) c).arrAt_in w hin cfg1.N).trans (A_eq1 (Hand.V3 m ρ) c w))
theorem keepIn8 (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (Hand.V7 m ρ) c).arrAt_in w hin cfg3.N).trans (A_eq3 (Hand.V7 m ρ) c w))
theorem keepIn10 (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (Hand.V9 m ρ) c).arrAt_in w hin cfg4.N).trans (A_eq4 (Hand.V9 m ρ) c w))
theorem keepIn12 (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (Hand.V11 m ρ) c).arrAt_in w hin cfg5.N).trans (A_eq5 (Hand.V11 m ρ) c w))

theorem arg4_9 (c : Dev nD) : W4 m ρ c (Proc.devRef .tc main_arg9) = m ((c : Thread nD τ).loc main_arg9) :=
  (keep4 m ρ c main_arg9 (by decide)).trans ((keep3 m ρ c main_arg9 (by decide)).trans ((keep2 m ρ c main_arg9 (by decide)).trans (keep1 m ρ c main_arg9 (by decide))))
theorem arg6_12 (c : Dev nD) : W6 m ρ c (Proc.devRef .tc main_arg12) = m ((c : Thread nD τ).loc main_arg12) :=
  (keep6 m ρ c main_arg12 (by decide)).trans ((keep5 m ρ c main_arg12 (by decide)).trans ((keep4 m ρ c main_arg12 (by decide)).trans ((keep3 m ρ c main_arg12 (by decide)).trans ((keep2 m ρ c main_arg12 (by decide)).trans (keep1 m ρ c main_arg12 (by decide))))))
theorem arg6_13 (c : Dev nD) : W6 m ρ c (Proc.devRef .tc main_arg13) = m ((c : Thread nD τ).loc main_arg13) :=
  (keep6 m ρ c main_arg13 (by decide)).trans ((keep5 m ρ c main_arg13 (by decide)).trans ((keep4 m ρ c main_arg13 (by decide)).trans ((keep3 m ρ c main_arg13 (by decide)).trans ((keep2 m ρ c main_arg13 (by decide)).trans (keep1 m ρ c main_arg13 (by decide))))))
theorem arg8_15 (c : Dev nD) : W8 m ρ c (Proc.devRef .tc main_arg15) = m ((c : Thread nD τ).loc main_arg15) :=
  (keep8 m ρ c main_arg15 (by decide)).trans ((keep7 m ρ c main_arg15 (by decide)).trans ((keep6 m ρ c main_arg15 (by decide)).trans ((keep5 m ρ c main_arg15 (by decide)).trans ((keep4 m ρ c main_arg15 (by decide)).trans ((keep3 m ρ c main_arg15 (by decide)).trans ((keep2 m ρ c main_arg15 (by decide)).trans (keep1 m ρ c main_arg15 (by decide))))))))
theorem arg10_3 (c : Dev nD) : W10 m ρ c (Proc.devRef .tc main_arg3) = m ((c : Thread nD τ).loc main_arg3) :=
  (keep10 m ρ c main_arg3 (by decide)).trans ((keep9 m ρ c main_arg3 (by decide)).trans ((keep8 m ρ c main_arg3 (by decide)).trans ((keep7 m ρ c main_arg3 (by decide)).trans ((keep6 m ρ c main_arg3 (by decide)).trans ((keep5 m ρ c main_arg3 (by decide)).trans ((keep4 m ρ c main_arg3 (by decide)).trans ((keep3 m ρ c main_arg3 (by decide)).trans ((keep2 m ρ c main_arg3 (by decide)).trans (keep1 m ρ c main_arg3 (by decide))))))))))
theorem arg10_17 (c : Dev nD) : W10 m ρ c (Proc.devRef .tc main_arg17) = m ((c : Thread nD τ).loc main_arg17) :=
  (keep10 m ρ c main_arg17 (by decide)).trans ((keep9 m ρ c main_arg17 (by decide)).trans ((keep8 m ρ c main_arg17 (by decide)).trans ((keep7 m ρ c main_arg17 (by decide)).trans ((keep6 m ρ c main_arg17 (by decide)).trans ((keep5 m ρ c main_arg17 (by decide)).trans ((keep4 m ρ c main_arg17 (by decide)).trans ((keep3 m ρ c main_arg17 (by decide)).trans ((keep2 m ρ c main_arg17 (by decide)).trans (keep1 m ρ c main_arg17 (by decide))))))))))

theorem op0_x (c : Dev nD) : Hand.V1 m ρ c main_v19 = stCat (stEmbed (m ((c : Thread nD τ).loc main_arg0)) (m ((c : Thread nD τ).loc main_arg5))) (shapeCast S1x2048 (m ((c : Thread nD τ).loc main_arg1)) shapeCasts_S1x1x2048_S1x2048) :=
  after0_v19 (W0 m ρ c)
theorem op0_w (c : Dev nD) : Hand.V1 m ρ c main_v12 = truncf .bf16 (m ((c : Thread nD τ).loc main_arg6)) bitsLt_bf16_f32 :=
  after0_v12 (W0 m ρ c)
theorem op0_b (c : Dev nD) : Hand.V1 m ρ c main_v20 = shapeCast S1x4096 (m ((c : Thread nD τ).loc main_arg7)) shapeCasts_S4096_S1x4096 :=
  after0_v20 (W0 m ρ c)

theorem op1_x (c : Dev nD) : Hand.V3 m ρ c main_v32 = stSoftmax (W2 m ρ c (Proc.devRef .tc main_v21)) :=
  after1_v32 (W2 m ρ c)
theorem op1_w (c : Dev nD) : Hand.V3 m ρ c main_v18 = truncf .bf16 (m ((c : Thread nD τ).loc main_arg2)) bitsLt_bf16_f32 :=
  ((keep3 m ρ c main_v18 (by decide)).trans (keep2 m ρ c main_v18 (by decide))).trans (after0_v18 (W0 m ρ c))

theorem v11_4 (c : Dev nD) : W4 m ρ c (Proc.devRef .tc main_v11) = stEmbed (m ((c : Thread nD τ).loc main_arg0)) (m ((c : Thread nD τ).loc main_arg5)) :=
  ((keep4 m ρ c main_v11 (by decide)).trans ((keep3 m ρ c main_v11 (by decide)).trans (keep2 m ρ c main_v11 (by decide)))).trans (after0_v11 (W0 m ρ c))
theorem op2_x (c : Dev nD) : Hand.V5 m ρ c main_v34 = stCat (stEmbed (m ((c : Thread nD τ).loc main_arg0)) (m ((c : Thread nD τ).loc main_arg5))) (W4 m ρ c (Proc.devRef .tc main_v33)) :=
  (after2_v34 (W4 m ρ c)).trans (by rw [v11_4 m ρ c])
theorem op2_w (c : Dev nD) : Hand.V5 m ρ c main_v13 = truncf .bf16 (m ((c : Thread nD τ).loc main_arg8)) bitsLt_bf16_f32 :=
  ((keep5 m ρ c main_v13 (by decide)).trans ((keep4 m ρ c main_v13 (by decide)).trans ((keep3 m ρ c main_v13 (by decide)).trans (keep2 m ρ c main_v13 (by decide))))).trans (after0_v13 (W0 m ρ c))
theorem op2_b (c : Dev nD) : Hand.V5 m ρ c main_v35 = shapeCast S1x2048 (m ((c : Thread nD τ).loc main_arg9)) shapeCasts_S2048_S1x2048 :=
  (after2_v35 (W4 m ρ c)).trans (by rw [arg4_9 m ρ c])

theorem op3_x (c : Dev nD) : Hand.V7 m ρ c main_v36 = W6 m ρ c (Proc.devRef .tc main_v36) :=
  keep7 m ρ c main_v36 (by decide)
theorem op3_h (c : Dev nD) : Hand.V7 m ρ c main_v0 = shapeCast S1x2048 (m ((c : Thread nD τ).loc main_arg1)) shapeCasts_S1x1x2048_S1x2048 :=
  ((keep7 m ρ c main_v0 (by decide)).trans ((keep6 m ρ c main_v0 (by decide)).trans ((keep5 m ρ c main_v0 (by decide)).trans ((keep4 m ρ c main_v0 (by decide)).trans ((keep3 m ρ c main_v0 (by decide)).trans (keep2 m ρ c main_v0 (by decide))))))).trans (after0_v0 (W0 m ρ c))
theorem op3_w1 (c : Dev nD) : Hand.V7 m ρ c main_v14 = truncf .bf16 (m ((c : Thread nD τ).loc main_arg10)) bitsLt_bf16_f32 :=
  ((keep7 m ρ c main_v14 (by decide)).trans ((keep6 m ρ c main_v14 (by decide)).trans ((keep5 m ρ c main_v14 (by decide)).trans ((keep4 m ρ c main_v14 (by decide)).trans ((keep3 m ρ c main_v14 (by decide)).trans (keep2 m ρ c main_v14 (by decide))))))).trans (after0_v14 (W0 m ρ c))
theorem op3_w2 (c : Dev nD) : Hand.V7 m ρ c main_v15 = truncf .bf16 (m ((c : Thread nD τ).loc main_arg11)) bitsLt_bf16_f32 :=
  ((keep7 m ρ c main_v15 (by decide)).trans ((keep6 m ρ c main_v15 (by decide)).trans ((keep5 m ρ c main_v15 (by decide)).trans ((keep4 m ρ c main_v15 (by decide)).trans ((keep3 m ρ c main_v15 (by decide)).trans (keep2 m ρ c main_v15 (by decide))))))).trans (after0_v15 (W0 m ρ c))
theorem op3_b1 (c : Dev nD) : Hand.V7 m ρ c main_v37 = shapeCast S1x6144 (m ((c : Thread nD τ).loc main_arg12)) shapeCasts_S6144_S1x6144 :=
  (after3_v37 (W6 m ρ c)).trans (by rw [arg6_12 m ρ c])
theorem op3_b2 (c : Dev nD) : Hand.V7 m ρ c main_v38 = shapeCast S1x6144 (m ((c : Thread nD τ).loc main_arg13)) shapeCasts_S6144_S1x6144 :=
  (after3_v38 (W6 m ρ c)).trans (by rw [arg6_13 m ρ c])

theorem v0_8 (c : Dev nD) : W8 m ρ c (Proc.devRef .tc main_v0) = shapeCast S1x2048 (m ((c : Thread nD τ).loc main_arg1)) shapeCasts_S1x1x2048_S1x2048 :=
  (keepIn8 m ρ c 1 rfl).trans (op3_h m ρ c)
theorem op4_x (c : Dev nD) : Hand.V9 m ρ c main_v67 = stGru (W8 m ρ c (Proc.devRef .tc main_v39_0)) (W8 m ρ c (Proc.devRef .tc main_v39_1)) (shapeCast S1x2048 (m ((c : Thread nD τ).loc main_arg1)) shapeCasts_S1x1x2048_S1x2048) :=
  (after4_v67 (W8 m ρ c)).trans (by rw [v0_8 m ρ c])
theorem op4_w (c : Dev nD) : Hand.V9 m ρ c main_v16 = truncf .bf16 (m ((c : Thread nD τ).loc main_arg14)) bitsLt_bf16_f32 :=
  ((keep9 m ρ c main_v16 (by decide)).trans ((keep8 m ρ c main_v16 (by decide)).trans ((keep7 m ρ c main_v16 (by decide)).trans ((keep6 m ρ c main_v16 (by decide)).trans ((keep5 m ρ c main_v16 (by decide)).trans ((keep4 m ρ c main_v16 (by decide)).trans ((keep3 m ρ c main_v16 (by decide)).trans (keep2 m ρ c main_v16 (by decide))))))))).trans (after0_v16 (W0 m ρ c))
theorem op4_b (c : Dev nD) : Hand.V9 m ρ c main_v68 = shapeCast S1x8192 (m ((c : Thread nD τ).loc main_arg15)) shapeCasts_S8192_S1x8192 :=
  (after4_v68 (W8 m ρ c)).trans (by rw [arg8_15 m ρ c])

theorem op5_x (c : Dev nD) : Hand.V11 m ρ c main_v70 = shapeCast S1x8192 (m ((c : Thread nD τ).loc main_arg3)) shapeCasts_S8192_S1x8192 :=
  (after5_v70 (W10 m ρ c)).trans (by rw [arg10_3 m ρ c])
theorem op5_w (c : Dev nD) : Hand.V11 m ρ c main_v17 = truncf .bf16 (m ((c : Thread nD τ).loc main_arg16)) bitsLt_bf16_f32 :=
  ((keep11 m ρ c main_v17 (by decide)).trans ((keep10 m ρ c main_v17 (by decide)).trans ((keep9 m ρ c main_v17 (by decide)).trans ((keep8 m ρ c main_v17 (by decide)).trans ((keep7 m ρ c main_v17 (by decide)).trans ((keep6 m ρ c main_v17 (by decide)).trans ((keep5 m ρ c main_v17 (by decide)).trans ((keep4 m ρ c main_v17 (by decide)).trans ((keep3 m ρ c main_v17 (by decide)).trans (keep2 m ρ c main_v17 (by decide))))))))))).trans (after0_v17 (W0 m ρ c))
theorem op5_b (c : Dev nD) : Hand.V11 m ρ c main_v71 = shapeCast S1x8192 (m ((c : Thread nD τ).loc main_arg17)) shapeCasts_S8192_S1x8192 :=
  (after5_v71 (W10 m ρ c)).trans (by rw [arg10_17 m ρ c])

theorem v69_12 (c : Dev nD) : W12 m ρ c (Proc.devRef .tc main_v69) = W10 m ρ c (Proc.devRef .tc main_v69) :=
  (keep12 m ρ c main_v69 (by decide)).trans (keep11 m ρ c main_v69 (by decide))

theorem v70_12 (c : Dev nD) : W12 m ρ c (Proc.devRef .tc main_v70) = shapeCast S1x8192 (m ((c : Thread nD τ).loc main_arg3)) shapeCasts_S8192_S1x8192 :=
  (keepIn12 m ρ c 0 rfl).trans (op5_x m ρ c)

theorem v67_12 (c : Dev nD) : W12 m ρ c (Proc.devRef .tc main_v67) = stGru (W8 m ρ c (Proc.devRef .tc main_v39_0)) (W8 m ρ c (Proc.devRef .tc main_v39_1)) (shapeCast S1x2048 (m ((c : Thread nD τ).loc main_arg1)) shapeCasts_S1x1x2048_S1x2048) :=
  (keep12 m ρ c main_v67 (by decide)).trans ((keep11 m ρ c main_v67 (by decide)).trans
    ((keepIn10 m ρ c 0 rfl).trans (op4_x m ρ c)))
theorem res92 (c : Dev nD) : W13 m ρ c (Proc.devRef .tc main_v92)
    = stFinal (W10 m ρ c (Proc.devRef .tc main_v69)) (W12 m ρ c (Proc.devRef .tc main_v72)) (shapeCast S1x8192 (m ((c : Thread nD τ).loc main_arg3)) shapeCasts_S8192_S1x8192) :=
  (after6_v92 (W12 m ρ c)).trans (by rw [v69_12 m ρ c, v70_12 m ρ c])
theorem res93 (c : Dev nD) : W13 m ρ c (Proc.devRef .tc main_v93) = stOut1 (stGru (W8 m ρ c (Proc.devRef .tc main_v39_0)) (W8 m ρ c (Proc.devRef .tc main_v39_1)) (shapeCast S1x2048 (m ((c : Thread nD τ).loc main_arg1)) shapeCasts_S1x1x2048_S1x2048)) :=
  (after6_v93 (W12 m ρ c)).trans (by rw [v67_12 m ρ c])

theorem res32 (c : Dev nD) : W13 m ρ c (Proc.devRef .tc main_v32) = stSoftmax (W2 m ρ c (Proc.devRef .tc main_v21)) :=
  (keep13 m ρ c main_v32 (by decide)).trans <| (keep12 m ρ c main_v32 (by decide)).trans <|
  (keep11 m ρ c main_v32 (by decide)).trans <| (keep10 m ρ c main_v32 (by decide)).trans <|
  (keep9 m ρ c main_v32 (by decide)).trans <| (keep8 m ρ c main_v32 (by decide)).trans <|
  (keep7 m ρ c main_v32 (by decide)).trans <| (keep6 m ρ c main_v32 (by decide)).trans <|
  (keep5 m ρ c main_v32 (by decide)).trans <| (keepIn4 m ρ c 0 rfl).trans (op1_x m ρ c)

end Cert.KernelIdeal.Val

end
-- ==== Proof.Val.Pay.lean ====
import proofs.«416939_j18966575579384_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

theorem lhs_c4096_0 (i : S1x512.Idx) (q : dot_S1x4096_S512x4096_S1x512_1_1_0_0_n_n.contr.Idx) :
    (dot_S1x4096_S512x4096_S1x512_1_1_0_0_n_n.lhsIdx i q 0).val = (i 0).val := by
  unfold DotDims.lhsIdx
  rw [dif_neg (show ¬(0 : Fin S1x4096.rank) ∈ dot_S1x4096_S512x4096_S1x512_1_1_0_0_n_n.lhsBatch by decide), dif_pos (show (0 : Fin S1x4096.rank) ∈ dot_S1x4096_S512x4096_S1x512_1_1_0_0_n_n.lhsNonContracting by decide)]
  rfl
theorem lhs_c4096_1 (i : S1x512.Idx) (q : dot_S1x4096_S512x4096_S1x512_1_1_0_0_n_n.contr.Idx) :
    (dot_S1x4096_S512x4096_S1x512_1_1_0_0_n_n.lhsIdx i q 1).val = (q ⟨0, by decide⟩).val :=
  dot_S1x4096_S512x4096_S1x512_1_1_0_0_n_n.lhsIdx_val_of_single rfl i q
theorem rhs_c4096_0 (i : S1x512.Idx) (q : dot_S1x4096_S512x4096_S1x512_1_1_0_0_n_n.contr.Idx) :
    (dot_S1x4096_S512x4096_S1x512_1_1_0_0_n_n.rhsIdx i q 0).val = (i 1).val := by
  unfold DotDims.rhsIdx
  rw [dif_neg (show ¬(0 : Fin S512x4096.rank) ∈ dot_S1x4096_S512x4096_S1x512_1_1_0_0_n_n.rhsBatch by decide), dif_pos (show (0 : Fin S512x4096.rank) ∈ dot_S1x4096_S512x4096_S1x512_1_1_0_0_n_n.rhsNonContracting by decide)]
  rfl
theorem rhs_c4096_1 (i : S1x512.Idx) (q : dot_S1x4096_S512x4096_S1x512_1_1_0_0_n_n.contr.Idx) :
    (dot_S1x4096_S512x4096_S1x512_1_1_0_0_n_n.rhsIdx i q 1).val = (q ⟨0, by decide⟩).val :=
  dot_S1x4096_S512x4096_S1x512_1_1_0_0_n_n.rhsIdx_val_of_single rfl i q

theorem dot_c4096_apply (x : FVec Ideal S1x4096 .bf16) (w : FVec Ideal S512x4096 .bf16) (j : Fin 512) :
    FloatOps.matmul dot_S1x4096_S512x4096_S1x512_1_1_0_0_n_n none x w (constant S1x512 .f32 0x00000000#32) (ix2 (0 : Fin 1) j)
      = ∑ k : Fin 4096, x (ix2 (0 : Fin 1) k) * w (ix2 j k) := by
  rw [Ideal.matmul_constant_zero_apply, ← Equiv.sum_comp (contrEquiv1 dot_S1x4096_S512x4096_S1x512_1_1_0_0_n_n 4096 rfl rfl).symm]
  refine Finset.sum_congr rfl fun k _ => ?_
  have hk := contrEquiv1_symm_val dot_S1x4096_S512x4096_S1x512_1_1_0_0_n_n 4096 rfl rfl k
  have el : dot_S1x4096_S512x4096_S1x512_1_1_0_0_n_n.lhsIdx (ix2 (0 : Fin 1) j) ((contrEquiv1 dot_S1x4096_S512x4096_S1x512_1_1_0_0_n_n 4096 rfl rfl).symm k) = ix2 (0 : Fin 1) k := funext fun a => Fin.ext (by
    match a with
    | ⟨0, _⟩ => exact lhs_c4096_0 _ _
    | ⟨1, _⟩ => exact (lhs_c4096_1 _ _).trans hk)
  have er : dot_S1x4096_S512x4096_S1x512_1_1_0_0_n_n.rhsIdx (ix2 (0 : Fin 1) j) ((contrEquiv1 dot_S1x4096_S512x4096_S1x512_1_1_0_0_n_n 4096 rfl rfl).symm k) = ix2 j k := funext fun a => Fin.ext (by
    match a with
    | ⟨0, _⟩ => exact rhs_c4096_0 _ _
    | ⟨1, _⟩ => exact (rhs_c4096_1 _ _).trans hk)
  rw [el, er]

theorem lhs_c2048_0 (i : S1x512.Idx) (q : dot_S1x2048_S512x2048_S1x512_1_1_0_0_n_n.contr.Idx) :
    (dot_S1x2048_S512x2048_S1x512_1_1_0_0_n_n.lhsIdx i q 0).val = (i 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl
theorem lhs_c2048_1 (i : S1x512.Idx) (q : dot_S1x2048_S512x2048_S1x512_1_1_0_0_n_n.contr.Idx) :
    (dot_S1x2048_S512x2048_S1x512_1_1_0_0_n_n.lhsIdx i q 1).val = (q ⟨0, by decide⟩).val :=
  dot_S1x2048_S512x2048_S1x512_1_1_0_0_n_n.lhsIdx_val_of_single rfl i q
theorem rhs_c2048_0 (i : S1x512.Idx) (q : dot_S1x2048_S512x2048_S1x512_1_1_0_0_n_n.contr.Idx) :
    (dot_S1x2048_S512x2048_S1x512_1_1_0_0_n_n.rhsIdx i q 0).val = (i 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
theorem rhs_c2048_1 (i : S1x512.Idx) (q : dot_S1x2048_S512x2048_S1x512_1_1_0_0_n_n.contr.Idx) :
    (dot_S1x2048_S512x2048_S1x512_1_1_0_0_n_n.rhsIdx i q 1).val = (q ⟨0, by decide⟩).val :=
  dot_S1x2048_S512x2048_S1x512_1_1_0_0_n_n.rhsIdx_val_of_single rfl i q

theorem dot_c2048_apply (x : FVec Ideal S1x2048 .bf16) (w : FVec Ideal S512x2048 .bf16) (j : Fin 512) :
    FloatOps.matmul dot_S1x2048_S512x2048_S1x512_1_1_0_0_n_n none x w (constant S1x512 .f32 0x00000000#32) (ix2 (0 : Fin 1) j)
      = ∑ k : Fin 2048, x (ix2 (0 : Fin 1) k) * w (ix2 j k) := by
  rw [Ideal.matmul_constant_zero_apply, ← Equiv.sum_comp (contrEquiv1 dot_S1x2048_S512x2048_S1x512_1_1_0_0_n_n 2048 rfl rfl).symm]
  refine Finset.sum_congr rfl fun k _ => ?_
  have hk := contrEquiv1_symm_val dot_S1x2048_S512x2048_S1x512_1_1_0_0_n_n 2048 rfl rfl k
  have el : dot_S1x2048_S512x2048_S1x512_1_1_0_0_n_n.lhsIdx (ix2 (0 : Fin 1) j) ((contrEquiv1 dot_S1x2048_S512x2048_S1x512_1_1_0_0_n_n 2048 rfl rfl).symm k) = ix2 (0 : Fin 1) k := funext fun a => Fin.ext (by
    match a with
    | ⟨0, _⟩ => exact lhs_c2048_0 _ _
    | ⟨1, _⟩ => exact (lhs_c2048_1 _ _).trans hk)
  have er : dot_S1x2048_S512x2048_S1x512_1_1_0_0_n_n.rhsIdx (ix2 (0 : Fin 1) j) ((contrEquiv1 dot_S1x2048_S512x2048_S1x512_1_1_0_0_n_n 2048 rfl rfl).symm k) = ix2 j k := funext fun a => Fin.ext (by
    match a with
    | ⟨0, _⟩ => exact rhs_c2048_0 _ _
    | ⟨1, _⟩ => exact (rhs_c2048_1 _ _).trans hk)
  rw [el, er]

theorem lhs_c8192_0 (i : S1x512.Idx) (q : dot_S1x8192_S512x8192_S1x512_1_1_0_0_n_n.contr.Idx) :
    (dot_S1x8192_S512x8192_S1x512_1_1_0_0_n_n.lhsIdx i q 0).val = (i 0).val := by
  unfold DotDims.lhsIdx
  rw [dif_neg (show ¬(0 : Fin S1x8192.rank) ∈ dot_S1x8192_S512x8192_S1x512_1_1_0_0_n_n.lhsBatch by decide), dif_pos (show (0 : Fin S1x8192.rank) ∈ dot_S1x8192_S512x8192_S1x512_1_1_0_0_n_n.lhsNonContracting by decide)]
  rfl
theorem lhs_c8192_1 (i : S1x512.Idx) (q : dot_S1x8192_S512x8192_S1x512_1_1_0_0_n_n.contr.Idx) :
    (dot_S1x8192_S512x8192_S1x512_1_1_0_0_n_n.lhsIdx i q 1).val = (q ⟨0, by decide⟩).val :=
  dot_S1x8192_S512x8192_S1x512_1_1_0_0_n_n.lhsIdx_val_of_single rfl i q
theorem rhs_c8192_0 (i : S1x512.Idx) (q : dot_S1x8192_S512x8192_S1x512_1_1_0_0_n_n.contr.Idx) :
    (dot_S1x8192_S512x8192_S1x512_1_1_0_0_n_n.rhsIdx i q 0).val = (i 1).val := by
  unfold DotDims.rhsIdx
  rw [dif_neg (show ¬(0 : Fin S512x8192.rank) ∈ dot_S1x8192_S512x8192_S1x512_1_1_0_0_n_n.rhsBatch by decide), dif_pos (show (0 : Fin S512x8192.rank) ∈ dot_S1x8192_S512x8192_S1x512_1_1_0_0_n_n.rhsNonContracting by decide)]
  rfl
theorem rhs_c8192_1 (i : S1x512.Idx) (q : dot_S1x8192_S512x8192_S1x512_1_1_0_0_n_n.contr.Idx) :
    (dot_S1x8192_S512x8192_S1x512_1_1_0_0_n_n.rhsIdx i q 1).val = (q ⟨0, by decide⟩).val :=
  dot_S1x8192_S512x8192_S1x512_1_1_0_0_n_n.rhsIdx_val_of_single rfl i q

theorem dot_c8192_apply (x : FVec Ideal S1x8192 .bf16) (w : FVec Ideal S512x8192 .bf16) (j : Fin 512) :
    FloatOps.matmul dot_S1x8192_S512x8192_S1x512_1_1_0_0_n_n none x w (constant S1x512 .f32 0x00000000#32) (ix2 (0 : Fin 1) j)
      = ∑ k : Fin 8192, x (ix2 (0 : Fin 1) k) * w (ix2 j k) := by
  rw [Ideal.matmul_constant_zero_apply, ← Equiv.sum_comp (contrEquiv1 dot_S1x8192_S512x8192_S1x512_1_1_0_0_n_n 8192 rfl rfl).symm]
  refine Finset.sum_congr rfl fun k _ => ?_
  have hk := contrEquiv1_symm_val dot_S1x8192_S512x8192_S1x512_1_1_0_0_n_n 8192 rfl rfl k
  have el : dot_S1x8192_S512x8192_S1x512_1_1_0_0_n_n.lhsIdx (ix2 (0 : Fin 1) j) ((contrEquiv1 dot_S1x8192_S512x8192_S1x512_1_1_0_0_n_n 8192 rfl rfl).symm k) = ix2 (0 : Fin 1) k := funext fun a => Fin.ext (by
    match a with
    | ⟨0, _⟩ => exact lhs_c8192_0 _ _
    | ⟨1, _⟩ => exact (lhs_c8192_1 _ _).trans hk)
  have er : dot_S1x8192_S512x8192_S1x512_1_1_0_0_n_n.rhsIdx (ix2 (0 : Fin 1) j) ((contrEquiv1 dot_S1x8192_S512x8192_S1x512_1_1_0_0_n_n 8192 rfl rfl).symm k) = ix2 j k := funext fun a => Fin.ext (by
    match a with
    | ⟨0, _⟩ => exact rhs_c8192_0 _ _
    | ⟨1, _⟩ => exact (rhs_c8192_1 _ _).trans hk)
  rw [el, er]

theorem lhs_acc_0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem lhs_acc_1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q
theorem rhs_acc_0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q
theorem rhs_acc_1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

theorem dot_acc_apply (x : FVec Ideal S1x512 .bf16) (w : FVec Ideal S512x1024 .bf16) (j : Fin 1024) :
    FloatOps.matmul dot_S1x512_S512x1024_S1x1024_1_0_0_1_n_n none x w (constant S1x1024 .f32 0x00000000#32) (ix2 (0 : Fin 1) j)
      = ∑ k : Fin 512, x (ix2 (0 : Fin 1) k) * w (ix2 k j) := by
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 (0 : Fin 1) j) ((contrEquiv1 dot_S1x512_S512x1024_S1x1024_1_0_0_1_n_n 512 rfl rfl).symm k) = ix2 (0 : Fin 1) k := funext fun a => Fin.ext (by
    match a with
    | ⟨0, _⟩ => exact lhs_acc_0 _ _
    | ⟨1, _⟩ => exact (lhs_acc_1 _ _).trans hk)
  have er : dot_S1x512_S512x1024_S1x1024_1_0_0_1_n_n.rhsIdx (ix2 (0 : Fin 1) j) ((contrEquiv1 dot_S1x512_S512x1024_S1x1024_1_0_0_1_n_n 512 rfl rfl).symm k) = ix2 k j := funext fun a => Fin.ext (by
    match a with
    | ⟨0, _⟩ => exact (rhs_acc_0 _ _).trans hk
    | ⟨1, _⟩ => exact rhs_acc_1 _ _)
  rw [el, er]

theorem k0_pay1_apply (x : Vec Ideal S1x4096 .f32) (w : Vec Ideal S512x4096 .bf16) (b : Vec Ideal S1x512 .f32) (j : Fin 512) :
    k0_pay1 (F := Ideal) x w b (ix2 (0 : Fin 1) j) = (∑ k : Fin 4096, x (ix2 (0 : Fin 1) k) * w (ix2 j k)) + b (ix2 (0 : Fin 1) j) := by
  unfold k0_pay1
  rw [shapeCast_self, shapeCast_self, shapeCast_self]
  exact congrArg (· + b (ix2 (0 : Fin 1) j)) (dot_c4096_apply (truncf .bf16 x bitsLt_bf16_f32) w j)

theorem k2_pay1_apply (x : Vec Ideal S1x4096 .f32) (w : Vec Ideal S512x4096 .bf16) (b : Vec Ideal S1x512 .f32) (j : Fin 512) :
    k2_pay1 (F := Ideal) x w b (ix2 (0 : Fin 1) j) = max ((∑ k : Fin 4096, x (ix2 (0 : Fin 1) k) * w (ix2 j k)) + b (ix2 (0 : Fin 1) j)) 0 := by
  unfold k2_pay1
  rw [shapeCast_self, shapeCast_self, shapeCast_self]
  refine (maximumf_apply _ _ _).trans ?_
  refine congrArg₂ max ?_ ?_
  · exact congrArg (· + b (ix2 (0 : Fin 1) j)) (dot_c4096_apply (truncf .bf16 x bitsLt_bf16_f32) w j)
  · exact Ideal.ofBits_zero_f32

theorem k3_pay1_apply (x : Vec Ideal S1x2048 .f32) (w : Vec Ideal S512x2048 .bf16) (b : Vec Ideal S1x512 .f32) (j : Fin 512) :
    k3_pay1 (F := Ideal) x w b (ix2 (0 : Fin 1) j) = (∑ k : Fin 2048, x (ix2 (0 : Fin 1) k) * w (ix2 j k)) + b (ix2 (0 : Fin 1) j) := by
  unfold k3_pay1
  rw [shapeCast_self, shapeCast_self, shapeCast_self]
  exact congrArg (· + b (ix2 (0 : Fin 1) j)) (dot_c2048_apply (truncf .bf16 x bitsLt_bf16_f32) w j)

theorem k3_pay2_apply (x : Vec Ideal S1x2048 .f32) (w : Vec Ideal S512x2048 .bf16) (b : Vec Ideal S1x512 .f32) (j : Fin 512) :
    k3_pay2 (F := Ideal) x w b (ix2 (0 : Fin 1) j) = (∑ k : Fin 2048, x (ix2 (0 : Fin 1) k) * w (ix2 j k)) + b (ix2 (0 : Fin 1) j) := by
  unfold k3_pay2
  rw [shapeCast_self, shapeCast_self, shapeCast_self]
  exact congrArg (· + b (ix2 (0 : Fin 1) j)) (dot_c2048_apply (truncf .bf16 x bitsLt_bf16_f32) w j)

theorem k4_pay1_apply (x : Vec Ideal S1x2048 .f32) (w : Vec Ideal S512x2048 .bf16) (b : Vec Ideal S1x512 .f32) (j : Fin 512) :
    k4_pay1 (F := Ideal) x w b (ix2 (0 : Fin 1) j) = (∑ k : Fin 2048, x (ix2 (0 : Fin 1) k) * w (ix2 j k)) + b (ix2 (0 : Fin 1) j) := by
  unfold k4_pay1
  rw [shapeCast_self, shapeCast_self, shapeCast_self]
  exact congrArg (· + b (ix2 (0 : Fin 1) j)) (dot_c2048_apply (truncf .bf16 x bitsLt_bf16_f32) w j)

theorem k5_pay1_apply (x : Vec Ideal S1x8192 .f32) (w : Vec Ideal S512x8192 .bf16) (b : Vec Ideal S1x512 .f32) (j : Fin 512) :
    k5_pay1 (F := Ideal) x w b (ix2 (0 : Fin 1) j) = Ideal.logistic ((∑ k : Fin 8192, x (ix2 (0 : Fin 1) k) * w (ix2 j k)) + b (ix2 (0 : Fin 1) j)) := by
  unfold k5_pay1
  rw [shapeCast_self, shapeCast_self, shapeCast_self]
  exact congrArg (fun s => Ideal.logistic (s + b (ix2 (0 : Fin 1) j))) (dot_c8192_apply (truncf .bf16 x bitsLt_bf16_f32) w j)

theorem k1_pay1_apply (j : Fin 1024) : k1_pay1 (F := Ideal) (ix2 (0 : Fin 1) j) = 0 := by
  unfold k1_pay1
  rw [shapeCast_self]
  exact Ideal.ofBits_zero_f32

theorem k1_pay2_apply (x : Vec Ideal S1x512 .f32) (a : Vec Ideal S1x1024 .f32) (w : Vec Ideal S512x1024 .bf16) (j : Fin 1024) :
    k1_pay2 (F := Ideal) x a w (ix2 (0 : Fin 1) j) = a (ix2 (0 : Fin 1) j) + ∑ k : Fin 512, x (ix2 (0 : Fin 1) k) * w (ix2 k j) := by
  unfold k1_pay2
  rw [shapeCast_self, shapeCast_self, shapeCast_self]
  exact congrArg (a (ix2 (0 : Fin 1) j) + ·) (dot_acc_apply (truncf .bf16 x bitsLt_bf16_f32) w j)

end Cert.KernelIdeal.Val
-- ==== Proof.Val.Closed.lean ====
import proofs.«416939_j18966575579384_3_alg».proof.Proof.KI.Reg0
import proofs.«416939_j18966575579384_3_alg».proof.Proof.KI.Reg2
import proofs.«416939_j18966575579384_3_alg».proof.Proof.KI.Reg3
import proofs.«416939_j18966575579384_3_alg».proof.Proof.KI.Reg4
import proofs.«416939_j18966575579384_3_alg».proof.Proof.KI.Reg5
import proofs.«416939_j18966575579384_3_alg».proof.Proof.Val.Pay
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

-- Entry j of the output row: the inner product of the activation row with row j of the weight matrix, plus bias entry j.
def G0 (x : Vec Ideal S1x4096 .f32) (w : Vec Ideal S4096x4096 .bf16) (b : Vec Ideal S1x4096 .f32) : Vec Ideal S1x4096 .f32 := fun i =>
  (∑ k : Fin 4096, x (ix2 (0 : Fin 1) k) * w (ix2 (i 1 : Fin 4096) k)) + b (ix2 (0 : Fin 1) (i 1 : Fin 4096))

theorem G0_apply (x : Vec Ideal S1x4096 .f32) (w : Vec Ideal S4096x4096 .bf16) (b : Vec Ideal S1x4096 .f32) (j : Fin 4096) :
    G0 x w b (ix2 (0 : Fin 1) j) = (∑ k : Fin 4096, x (ix2 (0 : Fin 1) k) * w (ix2 j k)) + b (ix2 (0 : Fin 1) j) := rfl

theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem iblk0_0_apply (c : Dev nD) (t : Fin cfg0.N) (k : Fin 4096) :
    (iblk0 V c 0 t : Vec Ideal S1x4096 .f32) (ix2 (0 : Fin 1) k) = (V c main_v19 : Vec Ideal S1x4096 .f32) (ix2 (0 : Fin 1) k) := by
  obtain ⟨e0, e1, -⟩ := idx_facts0 t
  unfold iblk0
  rw [View.read_apply]
  show (V c main_v19 : Vec Ideal S1x4096 .f32) _ = (V c main_v19 : Vec Ideal S1x4096 .f32) _
  congr 1
  funext a
  apply Fin.ext
  match a with
  | ⟨0, _⟩ => show win0_0.index t 0 * 1 + 1 * 0 = 0; rw [e0]
  | ⟨1, _⟩ => show win0_0.index t 1 * 4096 + 1 * k.val = k.val; rw [e1]; omega

theorem iblk0_1_apply (c : Dev nD) (t : Fin cfg0.N) (q : Fin 512) (k : Fin 4096) (r : Fin 4096) (hr : r.val = 512 * t.val + q.val) :
    (iblk0 V c 1 t : Vec Ideal S512x4096 .bf16) (ix2 q k) = (V c main_v12 : Vec Ideal S4096x4096 .bf16) (ix2 r k) := by
  obtain ⟨-, -, e0, e1, -⟩ := idx_facts0 t
  unfold iblk0
  rw [View.read_apply]
  show (V c main_v12 : Vec Ideal S4096x4096 .bf16) _ = (V c main_v12 : Vec Ideal S4096x4096 .bf16) _
  congr 1
  funext a
  apply Fin.ext
  match a with
  | ⟨0, _⟩ => show win0_1.index t 0 * 512 + 1 * q.val = r.val; rw [e0, hr]; omega
  | ⟨1, _⟩ => show win0_1.index t 1 * 4096 + 1 * k.val = k.val; rw [e1]; omega

theorem iblk0_2_apply (c : Dev nD) (t : Fin cfg0.N) (q : Fin 512) (r : Fin 4096) (hr : r.val = 512 * t.val + q.val) :
    (iblk0 V c 2 t : Vec Ideal S1x512 .f32) (ix2 (0 : Fin 1) q) = (V c main_v20 : Vec Ideal S1x4096 .f32) (ix2 (0 : Fin 1) r) := by
  obtain ⟨-, -, -, -, e0, e1, -⟩ := idx_facts0 t
  unfold iblk0
  rw [View.read_apply]
  show (V c main_v20 : Vec Ideal S1x4096 .f32) _ = (V c main_v20 : Vec Ideal S1x4096 .f32) _
  congr 1
  funext a
  apply Fin.ext
  match a with
  | ⟨0, _⟩ => show win0_2.index t 0 * 1 + 1 * 0 = 0; rw [e0]
  | ⟨1, _⟩ => show win0_2.index t 1 * 512 + 1 * q.val = r.val; rw [e1, hr]; omega

theorem flushed0_eq (c : Dev nD) (t : Fin cfg0.N) :
    (dat0 (F := Ideal) V c).flushed 3 t = ((cfg0.win 3).blk t).view.read (Elt Ideal) (G0 (V c main_v19) (V c main_v12) (V c main_v20)) := by
  show (cfg0.win 3).cut (grid0.coords t) ((dat0 (F := Ideal) V c).after 3 t) = _
  rw [after0_3]
  unfold out0
  rw [View.canon_unit_zero hz2]
  simp only [View.ld_unit_zero (S := S1x4096) hz2, View.ld_unit_zero (S := S512x4096) hz2, View.ld_unit_zero (S := S1x512) hz2]
  obtain ⟨-, -, -, -, -, -, e0, e1⟩ := idx_facts0 t
  funext j
  obtain ⟨p, q, rfl⟩ : ∃ (p : Fin 1) (q : Fin 512), j = ix2 p q := ⟨j 0, j 1, eq_ix2 j⟩
  obtain rfl : p = 0 := Subsingleton.elim _ _
  have hr : ((((cfg0.win 3).blk t).view.emb (ix2 (0 : Fin 1) q)) 1 : Fin 4096).val = 512 * t.val + q.val := by
    show win0_3.index t 1 * 512 + 1 * q.val = _
    rw [e1]; omega
  rw [View.read_apply]
  show k0_pay1 (F := Ideal) (iblk0 V c 0 t) (iblk0 V c 1 t) (iblk0 V c 2 t) (ix2 (0 : Fin 1) q)
    = G0 (V c main_v19) (V c main_v12) (V c main_v20) (((cfg0.win 3).blk t).view.emb (ix2 (0 : Fin 1) q))
  rw [k0_pay1_apply]
  unfold G0
  rw [iblk0_2_apply V c t q _ hr]
  congr 1
  refine Finset.sum_congr rfl fun k _ => ?_
  rw [iblk0_0_apply V c t k, iblk0_1_apply V c t q k _ hr]

theorem mem_blk0 (t : Fin cfg0.N) (i : S1x4096.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v21).slice (win0_3.rect t)).set ↔ _
  rw [View.set_slice_whole, Rect.mem_set_unit]
  exact Iff.rfl

-- Entry j of the output lies in the block that grid point j / 512 writes.
theorem cover0 (i : S1x4096.Idx) : ∃ t : Fin cfg0.N, (cfg0.win 3).flush t = true ∧ i ∈ ((cfg0.win 3).blk t).view.set := by
  have h0 : (i 0).val < 1 := (i 0).isLt
  have h1 : (i 1).val < 4096 := (i 1).isLt
  have ht : (i 1).val / 512 < cfg0.N := by show (i 1).val / 512 < 8; omega
  obtain ⟨-, -, -, -, -, -, e0, e1⟩ := idx_facts0 ⟨(i 1).val / 512, ht⟩
  refine ⟨⟨(i 1).val / 512, ht⟩, flush0_3 _, ?_⟩
  rw [mem_blk0]
  intro a
  match a with
  | ⟨0, _⟩ =>
    show win0_3.index ⟨(i 1).val / 512, ht⟩ 0 * 1 ≤ (i 0).val ∧ (i 0).val < win0_3.index ⟨(i 1).val / 512, ht⟩ 0 * 1 + 1
    rw [e0]; omega
  | ⟨1, _⟩ =>
    show win0_3.index ⟨(i 1).val / 512, ht⟩ 1 * 512 ≤ (i 1).val ∧ (i 1).val < win0_3.index ⟨(i 1).val / 512, ht⟩ 1 * 512 + 512
    rw [e1]
    show (i 1).val / 512 * 512 ≤ (i 1).val ∧ (i 1).val < (i 1).val / 512 * 512 + 512
    omega

theorem final0 (c : Dev nD) : (dat0 (F := Ideal) V c).arrAt 3 cfg0.N = G0 (V c main_v19) (V c main_v12) (V c main_v20) :=
  (dat0 (F := Ideal) V c).arrAt_eq_of_cover 3 (G0 (V c main_v19) (V c main_v12) (V c main_v20)) (fun t _ => flushed0_eq V c t) cover0

theorem closed0 (c : Dev nD) (j : Fin 4096) :
    (dat0 (F := Ideal) V c).arrAt 3 cfg0.N (ix2 (0 : Fin 1) j) = G0 (V c main_v19) (V c main_v12) (V c main_v20) (ix2 (0 : Fin 1) j) :=
  congrFun (final0 V c) (ix2 (0 : Fin 1) j)

def G2 (x : Vec Ideal S1x4096 .f32) (w : Vec Ideal S2048x4096 .bf16) (b : Vec Ideal S1x2048 .f32) : Vec Ideal S1x2048 .f32 := fun i =>
  max ((∑ k : Fin 4096, x (ix2 (0 : Fin 1) k) * w (ix2 (i 1 : Fin 2048) k)) + b (ix2 (0 : Fin 1) (i 1 : Fin 2048))) 0

theorem G2_apply (x : Vec Ideal S1x4096 .f32) (w : Vec Ideal S2048x4096 .bf16) (b : Vec Ideal S1x2048 .f32) (j : Fin 2048) :
    G2 x w b (ix2 (0 : Fin 1) j) = max ((∑ k : Fin 4096, x (ix2 (0 : Fin 1) k) * w (ix2 j k)) + b (ix2 (0 : Fin 1) j)) 0 := rfl

theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem iblk2_0_apply (c : Dev nD) (t : Fin cfg2.N) (k : Fin 4096) :
    (iblk2 V c 0 t : Vec Ideal S1x4096 .f32) (ix2 (0 : Fin 1) k) = (V c main_v34 : Vec Ideal S1x4096 .f32) (ix2 (0 : Fin 1) k) := by
  obtain ⟨e0, e1, -⟩ := idx_facts2 t
  unfold iblk2
  rw [View.read_apply]
  show (V c main_v34 : Vec Ideal S1x4096 .f32) _ = (V c main_v34 : Vec Ideal S1x4096 .f32) _
  congr 1
  funext a
  apply Fin.ext
  match a with
  | ⟨0, _⟩ => show win2_0.index t 0 * 1 + 1 * 0 = 0; rw [e0]
  | ⟨1, _⟩ => show win2_0.index t 1 * 4096 + 1 * k.val = k.val; rw [e1]; omega

theorem iblk2_1_apply (c : Dev nD) (t : Fin cfg2.N) (q : Fin 512) (k : Fin 4096) (r : Fin 2048) (hr : r.val = 512 * t.val + q.val) :
    (iblk2 V c 1 t : Vec Ideal S512x4096 .bf16) (ix2 q k) = (V c main_v13 : Vec Ideal S2048x4096 .bf16) (ix2 r k) := by
  obtain ⟨-, -, e0, e1, -⟩ := idx_facts2 t
  unfold iblk2
  rw [View.read_apply]
  show (V c main_v13 : Vec Ideal S2048x4096 .bf16) _ = (V c main_v13 : Vec Ideal S2048x4096 .bf16) _
  congr 1
  funext a
  apply Fin.ext
  match a with
  | ⟨0, _⟩ => show win2_1.index t 0 * 512 + 1 * q.val = r.val; rw [e0, hr]; omega
  | ⟨1, _⟩ => show win2_1.index t 1 * 4096 + 1 * k.val = k.val; rw [e1]; omega

theorem iblk2_2_apply (c : Dev nD) (t : Fin cfg2.N) (q : Fin 512) (r : Fin 2048) (hr : r.val = 512 * t.val + q.val) :
    (iblk2 V c 2 t : Vec Ideal S1x512 .f32) (ix2 (0 : Fin 1) q) = (V c main_v35 : Vec Ideal S1x2048 .f32) (ix2 (0 : Fin 1) r) := by
  obtain ⟨-, -, -, -, e0, e1, -⟩ := idx_facts2 t
  unfold iblk2
  rw [View.read_apply]
  show (V c main_v35 : Vec Ideal S1x2048 .f32) _ = (V c main_v35 : Vec Ideal S1x2048 .f32) _
  congr 1
  funext a
  apply Fin.ext
  match a with
  | ⟨0, _⟩ => show win2_2.index t 0 * 1 + 1 * 0 = 0; rw [e0]
  | ⟨1, _⟩ => show win2_2.index t 1 * 512 + 1 * q.val = r.val; rw [e1, hr]; omega

theorem flushed2_eq (c : Dev nD) (t : Fin cfg2.N) :
    (dat2 (F := Ideal) V c).flushed 3 t = ((cfg2.win 3).blk t).view.read (Elt Ideal) (G2 (V c main_v34) (V c main_v13) (V c main_v35)) := by
  show (cfg2.win 3).cut (grid2.coords t) ((dat2 (F := Ideal) V c).after 3 t) = _
  rw [after2_3]
  unfold out2
  rw [View.canon_unit_zero hz2]
  simp only [View.ld_unit_zero (S := S1x4096) hz2, View.ld_unit_zero (S := S512x4096) hz2, View.ld_unit_zero (S := S1x512) hz2]
  obtain ⟨-, -, -, -, -, -, e0, e1⟩ := idx_facts2 t
  funext j
  obtain ⟨p, q, rfl⟩ : ∃ (p : Fin 1) (q : Fin 512), j = ix2 p q := ⟨j 0, j 1, eq_ix2 j⟩
  obtain rfl : p = 0 := Subsingleton.elim _ _
  have hr : ((((cfg2.win 3).blk t).view.emb (ix2 (0 : Fin 1) q)) 1 : Fin 2048).val = 512 * t.val + q.val := by
    show win2_3.index t 1 * 512 + 1 * q.val = _
    rw [e1]; omega
  rw [View.read_apply]
  show k2_pay1 (F := Ideal) (iblk2 V c 0 t) (iblk2 V c 1 t) (iblk2 V c 2 t) (ix2 (0 : Fin 1) q)
    = G2 (V c main_v34) (V c main_v13) (V c main_v35) (((cfg2.win 3).blk t).view.emb (ix2 (0 : Fin 1) q))
  rw [k2_pay1_apply]
  unfold G2
  rw [iblk2_2_apply V c t q _ hr]
  congr 1
  congr 1
  refine Finset.sum_congr rfl fun k _ => ?_
  rw [iblk2_0_apply V c t k, iblk2_1_apply V c t q k _ hr]

theorem mem_blk2 (t : Fin cfg2.N) (i : S1x2048.Idx) :
    i ∈ ((cfg2.win 3).blk t).view.set ↔ ∀ a : Fin 2, win2_3.index t a * S1x512.size a ≤ (i a).val ∧ (i a).val < win2_3.index t a * S1x512.size a + S1x512.size a := by
  show i ∈ ((View.whole main_v36).slice (win2_3.rect t)).set ↔ _
  rw [View.set_slice_whole, Rect.mem_set_unit]
  exact Iff.rfl

theorem cover2 (i : S1x2048.Idx) : ∃ t : Fin cfg2.N, (cfg2.win 3).flush t = true ∧ i ∈ ((cfg2.win 3).blk t).view.set := by
  have h0 : (i 0).val < 1 := (i 0).isLt
  have h1 : (i 1).val < 2048 := (i 1).isLt
  have ht : (i 1).val / 512 < cfg2.N := by show (i 1).val / 512 < 4; omega
  obtain ⟨-, -, -, -, -, -, e0, e1⟩ := idx_facts2 ⟨(i 1).val / 512, ht⟩
  refine ⟨⟨(i 1).val / 512, ht⟩, flush2_3 _, ?_⟩
  rw [mem_blk2]
  intro a
  match a with
  | ⟨0, _⟩ =>
    show win2_3.index ⟨(i 1).val / 512, ht⟩ 0 * 1 ≤ (i 0).val ∧ (i 0).val < win2_3.index ⟨(i 1).val / 512, ht⟩ 0 * 1 + 1
    rw [e0]; omega
  | ⟨1, _⟩ =>
    show win2_3.index ⟨(i 1).val / 512, ht⟩ 1 * 512 ≤ (i 1).val ∧ (i 1).val < win2_3.index ⟨(i 1).val / 512, ht⟩ 1 * 512 + 512
    rw [e1]
    show (i 1).val / 512 * 512 ≤ (i 1).val ∧ (i 1).val < (i 1).val / 512 * 512 + 512
    omega

theorem final2 (c : Dev nD) : (dat2 (F := Ideal) V c).arrAt 3 cfg2.N = G2 (V c main_v34) (V c main_v13) (V c main_v35) :=
  (dat2 (F := Ideal) V c).arrAt_eq_of_cover 3 (G2 (V c main_v34) (V c main_v13) (V c main_v35)) (fun t _ => flushed2_eq V c t) cover2

theorem closed2 (c : Dev nD) (j : Fin 2048) :
    (dat2 (F := Ideal) V c).arrAt 3 cfg2.N (ix2 (0 : Fin 1) j) = G2 (V c main_v34) (V c main_v13) (V c main_v35) (ix2 (0 : Fin 1) j) :=
  congrFun (final2 V c) (ix2 (0 : Fin 1) j)

def G3 (x : Vec Ideal S1x2048 .f32) (w : Vec Ideal S6144x2048 .bf16) (b : Vec Ideal S1x6144 .f32) : Vec Ideal S1x6144 .f32 := fun i =>
  (∑ k : Fin 2048, x (ix2 (0 : Fin 1) k) * w (ix2 (i 1 : Fin 6144) k)) + b (ix2 (0 : Fin 1) (i 1 : Fin 6144))

theorem G3_apply (x : Vec Ideal S1x2048 .f32) (w : Vec Ideal S6144x2048 .bf16) (b : Vec Ideal S1x6144 .f32) (j : Fin 6144) :
    G3 x w b (ix2 (0 : Fin 1) j) = (∑ k : Fin 2048, x (ix2 (0 : Fin 1) k) * w (ix2 j k)) + b (ix2 (0 : Fin 1) j) := rfl

theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = t.val
    ∧ win3_5.index t (0 : Fin 2) = 0 ∧ win3_5.index t (1 : Fin 2) = t.val
    ∧ win3_6.index t (0 : Fin 2) = 0 ∧ win3_6.index t (1 : Fin 2) = t.val
    ∧ win3_7.index t (0 : Fin 2) = 0 ∧ win3_7.index t (1 : Fin 2) = t.val :=
  (by decide +kernel : ∀ t : Fin grid3.N, _)

theorem iblk3_0_apply (c : Dev nD) (t : Fin cfg3.N) (k : Fin 2048) :
    (iblk3 V c 0 t : Vec Ideal S1x2048 .f32) (ix2 (0 : Fin 1) k) = (V c main_v36 : Vec Ideal S1x2048 .f32) (ix2 (0 : Fin 1) k) := by
  obtain ⟨e0, e1, -⟩ := idx_facts3 t
  unfold iblk3
  rw [View.read_apply]
  show (V c main_v36 : Vec Ideal S1x2048 .f32) _ = (V c main_v36 : Vec Ideal S1x2048 .f32) _
  congr 1
  funext a
  apply Fin.ext
  match a with
  | ⟨0, _⟩ => show win3_0.index t 0 * 1 + 1 * 0 = 0; rw [e0]
  | ⟨1, _⟩ => show win3_0.index t 1 * 2048 + 1 * k.val = k.val; rw [e1]; omega

theorem iblk3_2_apply (c : Dev nD) (t : Fin cfg3.N) (q : Fin 512) (k : Fin 2048) (r : Fin 6144) (hr : r.val = 512 * t.val + q.val) :
    (iblk3 V c 2 t : Vec Ideal S512x2048 .bf16) (ix2 q k) = (V c main_v14 : Vec Ideal S6144x2048 .bf16) (ix2 r k) := by
  obtain ⟨-, -, -, -, e0, e1, -⟩ := idx_facts3 t
  unfold iblk3
  rw [View.read_apply]
  show (V c main_v14 : Vec Ideal S6144x2048 .bf16) _ = (V c main_v14 : Vec Ideal S6144x2048 .bf16) _
  congr 1
  funext a
  apply Fin.ext
  match a with
  | ⟨0, _⟩ => show win3_2.index t 0 * 512 + 1 * q.val = r.val; rw [e0, hr]; omega
  | ⟨1, _⟩ => show win3_2.index t 1 * 2048 + 1 * k.val = k.val; rw [e1]; omega

theorem iblk3_4_apply (c : Dev nD) (t : Fin cfg3.N) (q : Fin 512) (r : Fin 6144) (hr : r.val = 512 * t.val + q.val) :
    (iblk3 V c 4 t : Vec Ideal S1x512 .f32) (ix2 (0 : Fin 1) q) = (V c main_v37 : Vec Ideal S1x6144 .f32) (ix2 (0 : Fin 1) r) := by
  obtain ⟨-, -, -, -, -, -, -, -, e0, e1, -⟩ := idx_facts3 t
  unfold iblk3
  rw [View.read_apply]
  show (V c main_v37 : Vec Ideal S1x6144 .f32) _ = (V c main_v37 : Vec Ideal S1x6144 .f32) _
  congr 1
  funext a
  apply Fin.ext
  match a with
  | ⟨0, _⟩ => show win3_4.index t 0 * 1 + 1 * 0 = 0; rw [e0]
  | ⟨1, _⟩ => show win3_4.index t 1 * 512 + 1 * q.val = r.val; rw [e1, hr]; omega

theorem iblk3_1_apply (c : Dev nD) (t : Fin cfg3.N) (k : Fin 2048) :
    (iblk3 V c 1 t : Vec Ideal S1x2048 .f32) (ix2 (0 : Fin 1) k) = (V c main_v0 : Vec Ideal S1x2048 .f32) (ix2 (0 : Fin 1) k) := by
  obtain ⟨-, -, e0, e1, -⟩ := idx_facts3 t
  unfold iblk3
  rw [View.read_apply]
  show (V c main_v0 : Vec Ideal S1x2048 .f32) _ = (V c main_v0 : Vec Ideal S1x2048 .f32) _
  congr 1
  funext a
  apply Fin.ext
  match a with
  | ⟨0, _⟩ => show win3_1.index t 0 * 1 + 1 * 0 = 0; rw [e0]
  | ⟨1, _⟩ => show win3_1.index t 1 * 2048 + 1 * k.val = k.val; rw [e1]; omega

theorem iblk3_3_apply (c : Dev nD) (t : Fin cfg3.N) (q : Fin 512) (k : Fin 2048) (r : Fin 6144) (hr : r.val = 512 * t.val + q.val) :
    (iblk3 V c 3 t : Vec Ideal S512x2048 .bf16) (ix2 q k) = (V c main_v15 : Vec Ideal S6144x2048 .bf16) (ix2 r k) := by
  obtain ⟨-, -, -, -, -, -, e0, e1, -⟩ := idx_facts3 t
  unfold iblk3
  rw [View.read_apply]
  show (V c main_v15 : Vec Ideal S6144x2048 .bf16) _ = (V c main_v15 : Vec Ideal S6144x2048 .bf16) _
  congr 1
  funext a
  apply Fin.ext
  match a with
  | ⟨0, _⟩ => show win3_3.index t 0 * 512 + 1 * q.val = r.val; rw [e0, hr]; omega
  | ⟨1, _⟩ => show win3_3.index t 1 * 2048 + 1 * k.val = k.val; rw [e1]; omega

theorem iblk3_5_apply (c : Dev nD) (t : Fin cfg3.N) (q : Fin 512) (r : Fin 6144) (hr : r.val = 512 * t.val + q.val) :
    (iblk3 V c 5 t : Vec Ideal S1x512 .f32) (ix2 (0 : Fin 1) q) = (V c main_v38 : Vec Ideal S1x6144 .f32) (ix2 (0 : Fin 1) r) := by
  obtain ⟨-, -, -, -, -, -, -, -, -, -, e0, e1, -⟩ := idx_facts3 t
  unfold iblk3
  rw [View.read_apply]
  show (V c main_v38 : Vec Ideal S1x6144 .f32) _ = (V c main_v38 : Vec Ideal S1x6144 .f32) _
  congr 1
  funext a
  apply Fin.ext
  match a with
  | ⟨0, _⟩ => show win3_5.index t 0 * 1 + 1 * 0 = 0; rw [e0]
  | ⟨1, _⟩ => show win3_5.index t 1 * 512 + 1 * q.val = r.val; rw [e1, hr]; omega

theorem flushed3_6_eq (c : Dev nD) (t : Fin cfg3.N) :
    (dat3 (F := Ideal) V c).flushed 6 t = ((cfg3.win 6).blk t).view.read (Elt Ideal) (G3 (V c main_v36) (V c main_v14) (V c main_v37)) := by
  show (cfg3.win 6).cut (grid3.coords t) ((dat3 (F := Ideal) V c).after 6 t) = _
  rw [after3_6]
  unfold out3_6
  rw [View.canon_unit_zero hz2]
  simp only [View.ld_unit_zero (S := S1x2048) hz2, View.ld_unit_zero (S := S512x2048) hz2, View.ld_unit_zero (S := S1x512) hz2]
  obtain ⟨-, -, -, -, -, -, -, -, -, -, -, -, e0, e1, -⟩ := idx_facts3 t
  funext j
  obtain ⟨p, q, rfl⟩ : ∃ (p : Fin 1) (q : Fin 512), j = ix2 p q := ⟨j 0, j 1, eq_ix2 j⟩
  obtain rfl : p = 0 := Subsingleton.elim _ _
  have hr : ((((cfg3.win 6).blk t).view.emb (ix2 (0 : Fin 1) q)) 1 : Fin 6144).val = 512 * t.val + q.val := by
    show win3_6.index t 1 * 512 + 1 * q.val = _
    rw [e1]; omega
  rw [View.read_apply]
  show k3_pay1 (F := Ideal) (iblk3 V c 0 t) (iblk3 V c 2 t) (iblk3 V c 4 t) (ix2 (0 : Fin 1) q)
    = G3 (V c main_v36) (V c main_v14) (V c main_v37) (((cfg3.win 6).blk t).view.emb (ix2 (0 : Fin 1) q))
  rw [k3_pay1_apply]
  unfold G3
  rw [iblk3_4_apply V c t q _ hr]
  congr 1
  refine Finset.sum_congr rfl fun k _ => ?_
  rw [iblk3_0_apply V c t k, iblk3_2_apply V c t q k _ hr]

theorem mem_blk3_6 (t : Fin cfg3.N) (i : S1x6144.Idx) :
    i ∈ ((cfg3.win 6).blk t).view.set ↔ ∀ a : Fin 2, win3_6.index t a * S1x512.size a ≤ (i a).val ∧ (i a).val < win3_6.index t a * S1x512.size a + S1x512.size a := by
  show i ∈ ((View.whole main_v39_0).slice (win3_6.rect t)).set ↔ _
  rw [View.set_slice_whole, Rect.mem_set_unit]
  exact Iff.rfl

theorem cover3_6 (i : S1x6144.Idx) : ∃ t : Fin cfg3.N, (cfg3.win 6).flush t = true ∧ i ∈ ((cfg3.win 6).blk t).view.set := by
  have h0 : (i 0).val < 1 := (i 0).isLt
  have h1 : (i 1).val < 6144 := (i 1).isLt
  have ht : (i 1).val / 512 < cfg3.N := by show (i 1).val / 512 < 12; omega
  obtain ⟨-, -, -, -, -, -, -, -, -, -, -, -, e0, e1, -⟩ := idx_facts3 ⟨(i 1).val / 512, ht⟩
  refine ⟨⟨(i 1).val / 512, ht⟩, flush3_6 _, ?_⟩
  rw [mem_blk3_6]
  intro a
  match a with
  | ⟨0, _⟩ =>
    show win3_6.index ⟨(i 1).val / 512, ht⟩ 0 * 1 ≤ (i 0).val ∧ (i 0).val < win3_6.index ⟨(i 1).val / 512, ht⟩ 0 * 1 + 1
    rw [e0]; omega
  | ⟨1, _⟩ =>
    show win3_6.index ⟨(i 1).val / 512, ht⟩ 1 * 512 ≤ (i 1).val ∧ (i 1).val < win3_6.index ⟨(i 1).val / 512, ht⟩ 1 * 512 + 512
    rw [e1]
    show (i 1).val / 512 * 512 ≤ (i 1).val ∧ (i 1).val < (i 1).val / 512 * 512 + 512
    omega

theorem final3_6 (c : Dev nD) : (dat3 (F := Ideal) V c).arrAt 6 cfg3.N = G3 (V c main_v36) (V c main_v14) (V c main_v37) :=
  (dat3 (F := Ideal) V c).arrAt_eq_of_cover 6 (G3 (V c main_v36) (V c main_v14) (V c main_v37)) (fun t _ => flushed3_6_eq V c t) cover3_6

theorem flushed3_7_eq (c : Dev nD) (t : Fin cfg3.N) :
    (dat3 (F := Ideal) V c).flushed 7 t = ((cfg3.win 7).blk t).view.read (Elt Ideal) (G3 (V c main_v0) (V c main_v15) (V c main_v38)) := by
  show (cfg3.win 7).cut (grid3.coords t) ((dat3 (F := Ideal) V c).after 7 t) = _
  rw [after3_7]
  unfold out3_7
  rw [View.canon_unit_zero hz2]
  simp only [View.ld_unit_zero (S := S1x2048) hz2, View.ld_unit_zero (S := S512x2048) hz2, View.ld_unit_zero (S := S1x512) hz2]
  obtain ⟨-, -, -, -, -, -, -, -, -, -, -, -, -, -, e0, e1⟩ := idx_facts3 t
  funext j
  obtain ⟨p, q, rfl⟩ : ∃ (p : Fin 1) (q : Fin 512), j = ix2 p q := ⟨j 0, j 1, eq_ix2 j⟩
  obtain rfl : p = 0 := Subsingleton.elim _ _
  have hr : ((((cfg3.win 7).blk t).view.emb (ix2 (0 : Fin 1) q)) 1 : Fin 6144).val = 512 * t.val + q.val := by
    show win3_7.index t 1 * 512 + 1 * q.val = _
    rw [e1]; omega
  rw [View.read_apply]
  show k3_pay2 (F := Ideal) (iblk3 V c 1 t) (iblk3 V c 3 t) (iblk3 V c 5 t) (ix2 (0 : Fin 1) q)
    = G3 (V c main_v0) (V c main_v15) (V c main_v38) (((cfg3.win 7).blk t).view.emb (ix2 (0 : Fin 1) q))
  rw [k3_pay2_apply]
  unfold G3
  rw [iblk3_5_apply V c t q _ hr]
  congr 1
  refine Finset.sum_congr rfl fun k _ => ?_
  rw [iblk3_1_apply V c t k, iblk3_3_apply V c t q k _ hr]

theorem mem_blk3_7 (t : Fin cfg3.N) (i : S1x6144.Idx) :
    i ∈ ((cfg3.win 7).blk t).view.set ↔ ∀ a : Fin 2, win3_7.index t a * S1x512.size a ≤ (i a).val ∧ (i a).val < win3_7.index t a * S1x512.size a + S1x512.size a := by
  show i ∈ ((View.whole main_v39_1).slice (win3_7.rect t)).set ↔ _
  rw [View.set_slice_whole, Rect.mem_set_unit]
  exact Iff.rfl

theorem cover3_7 (i : S1x6144.Idx) : ∃ t : Fin cfg3.N, (cfg3.win 7).flush t = true ∧ i ∈ ((cfg3.win 7).blk t).view.set := by
  have h0 : (i 0).val < 1 := (i 0).isLt
  have h1 : (i 1).val < 6144 := (i 1).isLt
  have ht : (i 1).val / 512 < cfg3.N := by show (i 1).val / 512 < 12; omega
  obtain ⟨-, -, -, -, -, -, -, -, -, -, -, -, -, -, e0, e1⟩ := idx_facts3 ⟨(i 1).val / 512, ht⟩
  refine ⟨⟨(i 1).val / 512, ht⟩, flush3_7 _, ?_⟩
  rw [mem_blk3_7]
  intro a
  match a with
  | ⟨0, _⟩ =>
    show win3_7.index ⟨(i 1).val / 512, ht⟩ 0 * 1 ≤ (i 0).val ∧ (i 0).val < win3_7.index ⟨(i 1).val / 512, ht⟩ 0 * 1 + 1
    rw [e0]; omega
  | ⟨1, _⟩ =>
    show win3_7.index ⟨(i 1).val / 512, ht⟩ 1 * 512 ≤ (i 1).val ∧ (i 1).val < win3_7.index ⟨(i 1).val / 512, ht⟩ 1 * 512 + 512
    rw [e1]
    show (i 1).val / 512 * 512 ≤ (i 1).val ∧ (i 1).val < (i 1).val / 512 * 512 + 512
    omega

theorem final3_7 (c : Dev nD) : (dat3 (F := Ideal) V c).arrAt 7 cfg3.N = G3 (V c main_v0) (V c main_v15) (V c main_v38) :=
  (dat3 (F := Ideal) V c).arrAt_eq_of_cover 7 (G3 (V c main_v0) (V c main_v15) (V c main_v38)) (fun t _ => flushed3_7_eq V c t) cover3_7

def G4 (x : Vec Ideal S1x2048 .f32) (w : Vec Ideal S8192x2048 .bf16) (b : Vec Ideal S1x8192 .f32) : Vec Ideal S1x8192 .f32 := fun i =>
  (∑ k : Fin 2048, x (ix2 (0 : Fin 1) k) * w (ix2 (i 1 : Fin 8192) k)) + b (ix2 (0 : Fin 1) (i 1 : Fin 8192))

theorem G4_apply (x : Vec Ideal S1x2048 .f32) (w : Vec Ideal S8192x2048 .bf16) (b : Vec Ideal S1x8192 .f32) (j : Fin 8192) :
    G4 x w b (ix2 (0 : Fin 1) j) = (∑ k : Fin 2048, x (ix2 (0 : Fin 1) k) * w (ix2 j k)) + b (ix2 (0 : Fin 1) j) := rfl

theorem idx_facts4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val
    ∧ win4_3.index t (0 : Fin 2) = 0 ∧ win4_3.index t (1 : Fin 2) = t.val :=
  (by decide +kernel : ∀ t : Fin grid4.N, _)

theorem iblk4_0_apply (c : Dev nD) (t : Fin cfg4.N) (k : Fin 2048) :
    (iblk4 V c 0 t : Vec Ideal S1x2048 .f32) (ix2 (0 : Fin 1) k) = (V c main_v67 : Vec Ideal S1x2048 .f32) (ix2 (0 : Fin 1) k) := by
  obtain ⟨e0, e1, -⟩ := idx_facts4 t
  unfold iblk4
  rw [View.read_apply]
  show (V c main_v67 : Vec Ideal S1x2048 .f32) _ = (V c main_v67 : Vec Ideal S1x2048 .f32) _
  congr 1
  funext a
  apply Fin.ext
  match a with
  | ⟨0, _⟩ => show win4_0.index t 0 * 1 + 1 * 0 = 0; rw [e0]
  | ⟨1, _⟩ => show win4_0.index t 1 * 2048 + 1 * k.val = k.val; rw [e1]; omega

theorem iblk4_1_apply (c : Dev nD) (t : Fin cfg4.N) (q : Fin 512) (k : Fin 2048) (r : Fin 8192) (hr : r.val = 512 * t.val + q.val) :
    (iblk4 V c 1 t : Vec Ideal S512x2048 .bf16) (ix2 q k) = (V c main_v16 : Vec Ideal S8192x2048 .bf16) (ix2 r k) := by
  obtain ⟨-, -, e0, e1, -⟩ := idx_facts4 t
  unfold iblk4
  rw [View.read_apply]
  show (V c main_v16 : Vec Ideal S8192x2048 .bf16) _ = (V c main_v16 : Vec Ideal S8192x2048 .bf16) _
  congr 1
  funext a
  apply Fin.ext
  match a with
  | ⟨0, _⟩ => show win4_1.index t 0 * 512 + 1 * q.val = r.val; rw [e0, hr]; omega
  | ⟨1, _⟩ => show win4_1.index t 1 * 2048 + 1 * k.val = k.val; rw [e1]; omega

theorem iblk4_2_apply (c : Dev nD) (t : Fin cfg4.N) (q : Fin 512) (r : Fin 8192) (hr : r.val = 512 * t.val + q.val) :
    (iblk4 V c 2 t : Vec Ideal S1x512 .f32) (ix2 (0 : Fin 1) q) = (V c main_v68 : Vec Ideal S1x8192 .f32) (ix2 (0 : Fin 1) r) := by
  obtain ⟨-, -, -, -, e0, e1, -⟩ := idx_facts4 t
  unfold iblk4
  rw [View.read_apply]
  show (V c main_v68 : Vec Ideal S1x8192 .f32) _ = (V c main_v68 : Vec Ideal S1x8192 .f32) _
  congr 1
  funext a
  apply Fin.ext
  match a with
  | ⟨0, _⟩ => show win4_2.index t 0 * 1 + 1 * 0 = 0; rw [e0]
  | ⟨1, _⟩ => show win4_2.index t 1 * 512 + 1 * q.val = r.val; rw [e1, hr]; omega

theorem flushed4_eq (c : Dev nD) (t : Fin cfg4.N) :
    (dat4 (F := Ideal) V c).flushed 3 t = ((cfg4.win 3).blk t).view.read (Elt Ideal) (G4 (V c main_v67) (V c main_v16) (V c main_v68)) := by
  show (cfg4.win 3).cut (grid4.coords t) ((dat4 (F := Ideal) V c).after 3 t) = _
  rw [after4_3]
  unfold out4
  rw [View.canon_unit_zero hz2]
  simp only [View.ld_unit_zero (S := S1x2048) hz2, View.ld_unit_zero (S := S512x2048) hz2, View.ld_unit_zero (S := S1x512) hz2]
  obtain ⟨-, -, -, -, -, -, e0, e1⟩ := idx_facts4 t
  funext j
  obtain ⟨p, q, rfl⟩ : ∃ (p : Fin 1) (q : Fin 512), j = ix2 p q := ⟨j 0, j 1, eq_ix2 j⟩
  obtain rfl : p = 0 := Subsingleton.elim _ _
  have hr : ((((cfg4.win 3).blk t).view.emb (ix2 (0 : Fin 1) q)) 1 : Fin 8192).val = 512 * t.val + q.val := by
    show win4_3.index t 1 * 512 + 1 * q.val = _
    rw [e1]; omega
  rw [View.read_apply]
  show k4_pay1 (F := Ideal) (iblk4 V c 0 t) (iblk4 V c 1 t) (iblk4 V c 2 t) (ix2 (0 : Fin 1) q)
    = G4 (V c main_v67) (V c main_v16) (V c main_v68) (((cfg4.win 3).blk t).view.emb (ix2 (0 : Fin 1) q))
  rw [k4_pay1_apply]
  unfold G4
  rw [iblk4_2_apply V c t q _ hr]
  congr 1
  refine Finset.sum_congr rfl fun k _ => ?_
  rw [iblk4_0_apply V c t k, iblk4_1_apply V c t q k _ hr]

theorem mem_blk4 (t : Fin cfg4.N) (i : S1x8192.Idx) :
    i ∈ ((cfg4.win 3).blk t).view.set ↔ ∀ a : Fin 2, win4_3.index t a * S1x512.size a ≤ (i a).val ∧ (i a).val < win4_3.index t a * S1x512.size a + S1x512.size a := by
  show i ∈ ((View.whole main_v69).slice (win4_3.rect t)).set ↔ _
  rw [View.set_slice_whole, Rect.mem_set_unit]
  exact Iff.rfl

theorem cover4 (i : S1x8192.Idx) : ∃ t : Fin cfg4.N, (cfg4.win 3).flush t = true ∧ i ∈ ((cfg4.win 3).blk t).view.set := by
  have h0 : (i 0).val < 1 := (i 0).isLt
  have h1 : (i 1).val < 8192 := (i 1).isLt
  have ht : (i 1).val / 512 < cfg4.N := by show (i 1).val / 512 < 16; omega
  obtain ⟨-, -, -, -, -, -, e0, e1⟩ := idx_facts4 ⟨(i 1).val / 512, ht⟩
  refine ⟨⟨(i 1).val / 512, ht⟩, flush4_3 _, ?_⟩
  rw [mem_blk4]
  intro a
  match a with
  | ⟨0, _⟩ =>
    show win4_3.index ⟨(i 1).val / 512, ht⟩ 0 * 1 ≤ (i 0).val ∧ (i 0).val < win4_3.index ⟨(i 1).val / 512, ht⟩ 0 * 1 + 1
    rw [e0]; omega
  | ⟨1, _⟩ =>
    show win4_3.index ⟨(i 1).val / 512, ht⟩ 1 * 512 ≤ (i 1).val ∧ (i 1).val < win4_3.index ⟨(i 1).val / 512, ht⟩ 1 * 512 + 512
    rw [e1]
    show (i 1).val / 512 * 512 ≤ (i 1).val ∧ (i 1).val < (i 1).val / 512 * 512 + 512
    omega

theorem final4 (c : Dev nD) : (dat4 (F := Ideal) V c).arrAt 3 cfg4.N = G4 (V c main_v67) (V c main_v16) (V c main_v68) :=
  (dat4 (F := Ideal) V c).arrAt_eq_of_cover 3 (G4 (V c main_v67) (V c main_v16) (V c main_v68)) (fun t _ => flushed4_eq V c t) cover4

def G5 (x : Vec Ideal S1x8192 .f32) (w : Vec Ideal S8192x8192 .bf16) (b : Vec Ideal S1x8192 .f32) : Vec Ideal S1x8192 .f32 := fun i =>
  Ideal.logistic ((∑ k : Fin 8192, x (ix2 (0 : Fin 1) k) * w (ix2 (i 1 : Fin 8192) k)) + b (ix2 (0 : Fin 1) (i 1 : Fin 8192)))

theorem G5_apply (x : Vec Ideal S1x8192 .f32) (w : Vec Ideal S8192x8192 .bf16) (b : Vec Ideal S1x8192 .f32) (j : Fin 8192) :
    G5 x w b (ix2 (0 : Fin 1) j) = Ideal.logistic ((∑ k : Fin 8192, x (ix2 (0 : Fin 1) k) * w (ix2 j k)) + b (ix2 (0 : Fin 1) j)) := rfl

theorem idx_facts5 : ∀ t : Fin cfg5.N,
    win5_0.index t (0 : Fin 2) = 0 ∧ win5_0.index t (1 : Fin 2) = 0
    ∧ win5_1.index t (0 : Fin 2) = t.val ∧ win5_1.index t (1 : Fin 2) = 0
    ∧ win5_2.index t (0 : Fin 2) = 0 ∧ win5_2.index t (1 : Fin 2) = t.val
    ∧ win5_3.index t (0 : Fin 2) = 0 ∧ win5_3.index t (1 : Fin 2) = t.val :=
  (by decide +kernel : ∀ t : Fin grid5.N, _)

theorem iblk5_0_apply (c : Dev nD) (t : Fin cfg5.N) (k : Fin 8192) :
    (iblk5 V c 0 t : Vec Ideal S1x8192 .f32) (ix2 (0 : Fin 1) k) = (V c main_v70 : Vec Ideal S1x8192 .f32) (ix2 (0 : Fin 1) k) := by
  obtain ⟨e0, e1, -⟩ := idx_facts5 t
  unfold iblk5
  rw [View.read_apply]
  show (V c main_v70 : Vec Ideal S1x8192 .f32) _ = (V c main_v70 : Vec Ideal S1x8192 .f32) _
  congr 1
  funext a
  apply Fin.ext
  match a with
  | ⟨0, _⟩ => show win5_0.index t 0 * 1 + 1 * 0 = 0; rw [e0]
  | ⟨1, _⟩ => show win5_0.index t 1 * 8192 + 1 * k.val = k.val; rw [e1]; omega

theorem iblk5_1_apply (c : Dev nD) (t : Fin cfg5.N) (q : Fin 512) (k : Fin 8192) (r : Fin 8192) (hr : r.val = 512 * t.val + q.val) :
    (iblk5 V c 1 t : Vec Ideal S512x8192 .bf16) (ix2 q k) = (V c main_v17 : Vec Ideal S8192x8192 .bf16) (ix2 r k) := by
  obtain ⟨-, -, e0, e1, -⟩ := idx_facts5 t
  unfold iblk5
  rw [View.read_apply]
  show (V c main_v17 : Vec Ideal S8192x8192 .bf16) _ = (V c main_v17 : Vec Ideal S8192x8192 .bf16) _
  congr 1
  funext a
  apply Fin.ext
  match a with
  | ⟨0, _⟩ => show win5_1.index t 0 * 512 + 1 * q.val = r.val; rw [e0, hr]; omega
  | ⟨1, _⟩ => show win5_1.index t 1 * 8192 + 1 * k.val = k.val; rw [e1]; omega

theorem iblk5_2_apply (c : Dev nD) (t : Fin cfg5.N) (q : Fin 512) (r : Fin 8192) (hr : r.val = 512 * t.val + q.val) :
    (iblk5 V c 2 t : Vec Ideal S1x512 .f32) (ix2 (0 : Fin 1) q) = (V c main_v71 : Vec Ideal S1x8192 .f32) (ix2 (0 : Fin 1) r) := by
  obtain ⟨-, -, -, -, e0, e1, -⟩ := idx_facts5 t
  unfold iblk5
  rw [View.read_apply]
  show (V c main_v71 : Vec Ideal S1x8192 .f32) _ = (V c main_v71 : Vec Ideal S1x8192 .f32) _
  congr 1
  funext a
  apply Fin.ext
  match a with
  | ⟨0, _⟩ => show win5_2.index t 0 * 1 + 1 * 0 = 0; rw [e0]
  | ⟨1, _⟩ => show win5_2.index t 1 * 512 + 1 * q.val = r.val; rw [e1, hr]; omega

theorem flushed5_eq (c : Dev nD) (t : Fin cfg5.N) :
    (dat5 (F := Ideal) V c).flushed 3 t = ((cfg5.win 3).blk t).view.read (Elt Ideal) (G5 (V c main_v70) (V c main_v17) (V c main_v71)) := by
  show (cfg5.win 3).cut (grid5.coords t) ((dat5 (F := Ideal) V c).after 3 t) = _
  rw [after5_3]
  unfold out5
  rw [View.canon_unit_zero hz2]
  simp only [View.ld_unit_zero (S := S1x8192) hz2, View.ld_unit_zero (S := S512x8192) hz2, View.ld_unit_zero (S := S1x512) hz2]
  obtain ⟨-, -, -, -, -, -, e0, e1⟩ := idx_facts5 t
  funext j
  obtain ⟨p, q, rfl⟩ : ∃ (p : Fin 1) (q : Fin 512), j = ix2 p q := ⟨j 0, j 1, eq_ix2 j⟩
  obtain rfl : p = 0 := Subsingleton.elim _ _
  have hr : ((((cfg5.win 3).blk t).view.emb (ix2 (0 : Fin 1) q)) 1 : Fin 8192).val = 512 * t.val + q.val := by
    show win5_3.index t 1 * 512 + 1 * q.val = _
    rw [e1]; omega
  rw [View.read_apply]
  show k5_pay1 (F := Ideal) (iblk5 V c 0 t) (iblk5 V c 1 t) (iblk5 V c 2 t) (ix2 (0 : Fin 1) q)
    = G5 (V c main_v70) (V c main_v17) (V c main_v71) (((cfg5.win 3).blk t).view.emb (ix2 (0 : Fin 1) q))
  rw [k5_pay1_apply]
  unfold G5
  rw [iblk5_2_apply V c t q _ hr]
  congr 1
  congr 1
  refine Finset.sum_congr rfl fun k _ => ?_
  rw [iblk5_0_apply V c t k, iblk5_1_apply V c t q k _ hr]

theorem mem_blk5 (t : Fin cfg5.N) (i : S1x8192.Idx) :
    i ∈ ((cfg5.win 3).blk t).view.set ↔ ∀ a : Fin 2, win5_3.index t a * S1x512.size a ≤ (i a).val ∧ (i a).val < win5_3.index t a * S1x512.size a + S1x512.size a := by
  show i ∈ ((View.whole main_v72).slice (win5_3.rect t)).set ↔ _
  rw [View.set_slice_whole, Rect.mem_set_unit]
  exact Iff.rfl

theorem cover5 (i : S1x8192.Idx) : ∃ t : Fin cfg5.N, (cfg5.win 3).flush t = true ∧ i ∈ ((cfg5.win 3).blk t).view.set := by
  have h0 : (i 0).val < 1 := (i 0).isLt
  have h1 : (i 1).val < 8192 := (i 1).isLt
  have ht : (i 1).val / 512 < cfg5.N := by show (i 1).val / 512 < 16; omega
  obtain ⟨-, -, -, -, -, -, e0, e1⟩ := idx_facts5 ⟨(i 1).val / 512, ht⟩
  refine ⟨⟨(i 1).val / 512, ht⟩, flush5_3 _, ?_⟩
  rw [mem_blk5]
  intro a
  match a with
  | ⟨0, _⟩ =>
    show win5_3.index ⟨(i 1).val / 512, ht⟩ 0 * 1 ≤ (i 0).val ∧ (i 0).val < win5_3.index ⟨(i 1).val / 512, ht⟩ 0 * 1 + 1
    rw [e0]; omega
  | ⟨1, _⟩ =>
    show win5_3.index ⟨(i 1).val / 512, ht⟩ 1 * 512 ≤ (i 1).val ∧ (i 1).val < win5_3.index ⟨(i 1).val / 512, ht⟩ 1 * 512 + 512
    rw [e1]
    show (i 1).val / 512 * 512 ≤ (i 1).val ∧ (i 1).val < (i 1).val / 512 * 512 + 512
    omega

theorem final5 (c : Dev nD) : (dat5 (F := Ideal) V c).arrAt 3 cfg5.N = G5 (V c main_v70) (V c main_v17) (V c main_v71) :=
  (dat5 (F := Ideal) V c).arrAt_eq_of_cover 3 (G5 (V c main_v70) (V c main_v17) (V c main_v71)) (fun t _ => flushed5_eq V c t) cover5

end Cert.KernelIdeal.Val

end
-- ==== Proof.Val.Closed1.lean ====
import proofs.«416939_j18966575579384_3_alg».proof.Proof.KI.Reg1
import proofs.«416939_j18966575579384_3_alg».proof.Proof.Val.Pay
import Idealize.ShloMosaic.Lib.Pipeline.Value
import Idealize.ShloMosaic.Lib.ValueIdx
import Idealize.ShloMosaic.PureOps.Ideal.Laws
import Mathlib.Data.Fintype.BigOperators
import Mathlib.Algebra.BigOperators.Group.Finset.Basic

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

def G1 (x : Vec Ideal S1x4096 .f32) (w : Vec Ideal S4096x2048 .bf16) : Vec Ideal S1x2048 .f32 :=
  fun i => ∑ k : Fin 4096, x (ix2 (0 : Fin 1) k) * w (ix2 k (i 1))

theorem G1_apply (x : Vec Ideal S1x4096 .f32) (w : Vec Ideal S4096x2048 .bf16) (j : Fin 2048) :
    G1 x w (ix2 (0 : Fin 1) j) = ∑ k : Fin 4096, x (ix2 (0 : Fin 1) k) * w (ix2 k j) := rfl

def term1 (x : Vec Ideal S1x4096 .f32) (w : Vec Ideal S4096x2048 .bf16) (col m : ℕ) : Ideal .f32 :=
  if h : m < 4096 ∧ col < 2048 then
    x (ix2 (0 : Fin 1) (⟨m, h.1⟩ : Fin 4096)) * w (ix2 (⟨m, h.1⟩ : Fin 4096) (⟨col, h.2⟩ : Fin 2048))
  else 0

theorem G1_eq_range (x : Vec Ideal S1x4096 .f32) (w : Vec Ideal S4096x2048 .bf16) (j : Fin 2048) :
    G1 x w (ix2 (0 : Fin 1) j) = ∑ m ∈ Finset.range 4096, term1 x w j.val m := by
  rw [G1_apply]
  refine Eq.trans ?_ (Fin.sum_univ_eq_sum_range (fun m => term1 x w j.val m) 4096)
  refine Finset.sum_congr rfl fun k _ => ?_
  unfold term1
  rw [dif_pos (⟨k.isLt, j.isLt⟩ : k.val < 4096 ∧ j.val < 2048)]

theorem sum_range_block1 {M : Type*} [AddCommMonoid M] (f : ℕ → M) (k : ℕ) :
    ∑ m ∈ Finset.range (512 * (k + 1)), f m
      = ∑ m ∈ Finset.range (512 * k), f m + ∑ i ∈ Finset.range 512, f (512 * k + i) := by
  rw [Nat.mul_succ, Finset.sum_range_add]

theorem hz1 : (![0, 0] : Fin 2 → Nat) = fun _ => 0 := funext fun a => by fin_cases a <;> rfl

abbrev xArr1 (c : Dev nD) : Vec Ideal S1x4096 .f32 := V c main_v32
abbrev wArr1 (c : Dev nD) : Vec Ideal S4096x2048 .bf16 := V c main_v18
abbrev xBlk1 (c : Dev nD) (t : Fin cfg1.N) : Vec Ideal S1x512 .f32 := iblk1 V c 0 t
abbrev wBlk1 (c : Dev nD) (t : Fin cfg1.N) : Vec Ideal S512x1024 .bf16 := iblk1 V c 1 t

theorem idx_facts1 : ∀ t : Fin cfg1.N,
    win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = t.val / 8 :=
  (by decide +kernel : ∀ t : Fin grid1.N, _)

theorem xBlk1_apply (c : Dev nD) (t : Fin cfg1.N) (i : Fin 512) (k : Fin 4096) (hk : k.val = 512 * (t.val % 8) + i.val) :
    xBlk1 V c t (ix2 (0 : Fin 1) i) = xArr1 V c (ix2 (0 : Fin 1) k) := by
  obtain ⟨e0, e1, -⟩ := idx_facts1 t
  unfold xBlk1 xArr1 iblk1
  rw [View.read_apply]
  show V c main_v32 _ = V c main_v32 _
  congr 1
  funext a
  apply Fin.ext
  match a with
  | ⟨0, _⟩ => show win1_0.index t (0 : Fin 2) * 1 + 1 * 0 = 0; rw [e0]
  | ⟨1, _⟩ => show win1_0.index t (1 : Fin 2) * 512 + 1 * i.val = k.val; rw [e1, hk]; omega

theorem wBlk1_apply (c : Dev nD) (t : Fin cfg1.N) (i : Fin 512) (q : Fin 1024) (k : Fin 4096) (j : Fin 2048)
    (hk : k.val = 512 * (t.val % 8) + i.val) (hj : j.val = 1024 * (t.val / 8) + q.val) :
    wBlk1 V c t (ix2 i q) = wArr1 V c (ix2 k j) := by
  obtain ⟨-, -, e0, e1, -⟩ := idx_facts1 t
  unfold wBlk1 wArr1 iblk1
  rw [View.read_apply]
  show V c main_v18 _ = V c main_v18 _
  congr 1
  funext a
  apply Fin.ext
  match a with
  | ⟨0, _⟩ => show win1_1.index t (0 : Fin 2) * 512 + 1 * i.val = k.val; rw [e0, hk]; omega
  | ⟨1, _⟩ => show win1_1.index t (1 : Fin 2) * 1024 + 1 * q.val = j.val; rw [e1, hj]; omega

theorem block_sum1 (c : Dev nD) (t : Fin cfg1.N) (q : Fin 1024) :
    ∑ i : Fin 512, xBlk1 V c t (ix2 (0 : Fin 1) i) * wBlk1 V c t (ix2 i q)
      = ∑ i ∈ Finset.range 512, term1 (xArr1 V c) (wArr1 V c) (1024 * (t.val / 8) + q.val) (512 * (t.val % 8) + i) := by
  have hN : cfg1.N = 16 := N_1
  have ht := t.isLt
  refine Eq.trans ?_ (Fin.sum_univ_eq_sum_range
    (fun i => term1 (xArr1 V c) (wArr1 V c) (1024 * (t.val / 8) + q.val) (512 * (t.val % 8) + i)) 512)
  refine Finset.sum_congr rfl fun i _ => ?_
  have hm : 512 * (t.val % 8) + i.val < 4096 := by have := i.isLt; omega
  have hc : 1024 * (t.val / 8) + q.val < 2048 := by have := q.isLt; omega
  rw [xBlk1_apply V c t i ⟨_, hm⟩ rfl, wBlk1_apply V c t i q ⟨_, hm⟩ ⟨_, hc⟩ rfl rfl]
  unfold term1
  rw [dif_pos (⟨hm, hc⟩ : 512 * (t.val % 8) + i.val < 4096 ∧ 1024 * (t.val / 8) + q.val < 2048)]

theorem acc1_apply_reset (c : Dev nD) (t : Fin cfg1.N) (h : t.val % 8 = 0) (q : Fin 1024) :
    acc1 V c t.val t.isLt (ix2 (0 : Fin 1) q)
      = ∑ i ∈ Finset.range 512, term1 (xArr1 V c) (wArr1 V c) (1024 * (t.val / 8) + q.val) (512 * (t.val % 8) + i) := by
  rw [acc1_reset V c t h, View.canon_unit_zero hz1]
  simp only [View.ld_unit_zero (S := S1x512) hz1, View.ld_unit_zero (S := S1x1024) hz1,
    View.ld_unit_zero (S := S512x1024) hz1]
  refine (k1_pay2_apply _ _ _ q).trans ?_
  rw [View.canon_unit_zero hz1, k1_pay1_apply, zero_add]
  exact block_sum1 V c t q

theorem acc1_apply_step (c : Dev nD) (t : Fin cfg1.N) (h : t.val % 8 ≠ 0) (q : Fin 1024) :
    acc1 V c t.val t.isLt (ix2 (0 : Fin 1) q)
      = acc1 V c (t.val - 1) (by omega) (ix2 (0 : Fin 1) q)
        + ∑ i ∈ Finset.range 512, term1 (xArr1 V c) (wArr1 V c) (1024 * (t.val / 8) + q.val) (512 * (t.val % 8) + i) := by
  rw [acc1_step V c t h, View.canon_unit_zero hz1]
  simp only [View.ld_unit_zero (S := S1x512) hz1, View.ld_unit_zero (S := S1x1024) hz1,
    View.ld_unit_zero (S := S512x1024) hz1]
  refine (k1_pay2_apply _ _ _ q).trans ?_
  exact congrArg (acc1 V c (t.val - 1) _ (ix2 (0 : Fin 1) q) + ·) (block_sum1 V c t q)

theorem acc1_eq_sum (c : Dev nD) : ∀ (n : ℕ) (h : n < cfg1.N) (q : Fin 1024),
    acc1 V c n h (ix2 (0 : Fin 1) q)
      = ∑ m ∈ Finset.range (512 * (n % 8 + 1)), term1 (xArr1 V c) (wArr1 V c) (1024 * (n / 8) + q.val) m := by
  intro n
  induction n using Nat.strong_induction_on with
  | _ n ih =>
    intro h q
    by_cases h0 : n % 8 = 0
    · have e : acc1 V c n h (ix2 (0 : Fin 1) q)
          = ∑ i ∈ Finset.range 512, term1 (xArr1 V c) (wArr1 V c) (1024 * (n / 8) + q.val) (512 * (n % 8) + i) :=
        acc1_apply_reset V c ⟨n, h⟩ h0 q
      rw [e, sum_range_block1, h0, Nat.mul_zero, Finset.range_zero, Finset.sum_empty, zero_add]
    · have hn : n - 1 < n := by omega
      have h' : n - 1 < cfg1.N := by omega
      have e : acc1 V c n h (ix2 (0 : Fin 1) q)
          = acc1 V c (n - 1) h' (ix2 (0 : Fin 1) q)
            + ∑ i ∈ Finset.range 512, term1 (xArr1 V c) (wArr1 V c) (1024 * (n / 8) + q.val) (512 * (n % 8) + i) :=
        acc1_apply_step V c ⟨n, h⟩ h0 q
      rw [e, ih (n - 1) hn h' q, show (n - 1) / 8 = n / 8 by omega, show (n - 1) % 8 + 1 = n % 8 by omega,
        sum_range_block1]

theorem flushed1_eq (c : Dev nD) (t : Fin cfg1.N) (hf : (cfg1.win 2).flush t = true) :
    (dat1 V c).flushed 2 t = ((cfg1.win 2).blk t).view.read (Elt Ideal) (G1 (xArr1 V c) (wArr1 V c)) := by
  have hN : cfg1.N = 16 := N_1
  have ht := t.isLt
  have h7 : t.val % 8 = 7 := (flush1_2 t).mp hf
  obtain ⟨-, -, -, -, e0, e1⟩ := idx_facts1 t
  show (cfg1.win 2).cut (grid1.coords t) ((dat1 V c).after 2 t) = _
  rw [after1_2]
  funext y
  obtain ⟨p, q, rfl⟩ : ∃ (p : Fin 1) (q : Fin 1024), y = ix2 p q := ⟨y 0, y 1, eq_ix2 y⟩
  obtain rfl : p = 0 := Subsingleton.elim _ _
  have hc : 1024 * (t.val / 8) + q.val < 2048 := by have := q.isLt; omega
  have hy : ((cfg1.win 2).blk t).view.emb (ix2 (0 : Fin 1) q) = ix2 (0 : Fin 1) (⟨1024 * (t.val / 8) + q.val, hc⟩ : Fin 2048) := by
    funext a
    apply Fin.ext
    match a with
    | ⟨0, _⟩ => show win1_2.index t (0 : Fin 2) * 1 + 1 * 0 = 0; rw [e0]
    | ⟨1, _⟩ => show win1_2.index t (1 : Fin 2) * 1024 + 1 * q.val = 1024 * (t.val / 8) + q.val; rw [e1]; omega
  rw [View.read_apply, hy]
  show acc1 V c t.val t.isLt (ix2 (0 : Fin 1) q) = G1 (xArr1 V c) (wArr1 V c) (ix2 (0 : Fin 1) (⟨1024 * (t.val / 8) + q.val, hc⟩ : Fin 2048))
  rw [acc1_eq_sum V c t.val t.isLt q, G1_eq_range, h7]

theorem covered1 (i : S1x2048.Idx) :
    ∃ t : Fin cfg1.N, (cfg1.win 2).flush t = true ∧ i ∈ ((cfg1.win 2).blk t).view.set := by
  have hN : cfg1.N = 16 := N_1
  have h0 : (i 0).val < 1 := idx2_lt0 i
  have h1 : (i 1).val < 2048 := idx2_lt1 i
  have htN : 8 * ((i 1).val / 1024) + 7 < cfg1.N := by omega
  obtain ⟨-, -, -, -, e0, e1⟩ := idx_facts1 ⟨_, htN⟩
  refine ⟨⟨_, htN⟩, (flush1_2 _).mpr (by show (8 * ((i 1).val / 1024) + 7) % 8 = 7; omega), ?_⟩
  show i ∈ ((View.whole main_v33).slice (win1_2.rect ⟨_, htN⟩)).set
  rw [View.set_slice_whole, Rect.mem_set_unit]
  intro a
  match a with
  | ⟨0, _⟩ =>
    show win1_2.index ⟨_, htN⟩ (0 : Fin 2) * 1 ≤ (i 0).val ∧ (i 0).val < win1_2.index ⟨_, htN⟩ (0 : Fin 2) * 1 + 1
    rw [e0]; omega
  | ⟨1, _⟩ =>
    show win1_2.index ⟨_, htN⟩ (1 : Fin 2) * 1024 ≤ (i 1).val ∧ (i 1).val < win1_2.index ⟨_, htN⟩ (1 : Fin 2) * 1024 + 1024
    rw [e1]
    show (8 * ((i 1).val / 1024) + 7) / 8 * 1024 ≤ (i 1).val ∧ (i 1).val < (8 * ((i 1).val / 1024) + 7) / 8 * 1024 + 1024
    omega

theorem closed1 (c : Dev nD) (j : Fin 2048) :
    (dat1 (F := Ideal) V c).arrAt 2 cfg1.N (ix2 (0 : Fin 1) j) = G1 (V c main_v32) (V c main_v18) (ix2 (0 : Fin 1) j) :=
  congrFun ((dat1 (F := Ideal) V c).arrAt_eq_of_cover 2 (G1 (xArr1 V c) (wArr1 V c)) (flushed1_eq V c) (covered1)) (ix2 (0 : Fin 1) j)

end Cert.KernelIdeal.Val

end
-- ==== Proof.Val.RefForm.lean ====
import proofs.«416939_j18966575579384_3_alg».proof.ReferenceIdeal
import Idealize.ShloMosaic.Lib.Pipeline.Value
import Idealize.ShloMosaic.Lib.ValueIdx
import Idealize.ShloMosaic.PureOps.Ideal.Laws

noncomputable section

namespace Cert.ReferenceIdeal.Val

open Cert.ReferenceIdeal Cert.ReferenceIdeal.Facts₀ Idealize.ShloMosaic Idealize.ShloMosaic.ValueIdx

variable [Facts₀]

theorem transpose_swap_apply {α : Type} {m n : Nat} (W : (⟨2, ![m, n]⟩ : Shape).Idx → α)
    (h : (⟨2, ![m, n]⟩ : Shape).Transposes [1, 0] ⟨2, ![n, m]⟩) (k : Fin n) (j : Fin m) :
    transpose ⟨2, ![n, m]⟩ [1, 0] W h (ix2 k j) = W (ix2 j k) :=
  transpose_apply [1, 0] W h (ix2 k j) (ix2 j k) (fun b => match b with
    | ⟨0, _⟩ => rfl
    | ⟨1, _⟩ => rfl)

theorem bcast_row_apply {α : Type} {n : Nat} (hn : n ≠ 1) (B : (⟨1, ![n]⟩ : Shape).Idx → α)
    (h : (⟨1, ![n]⟩ : Shape).BroadcastsInDim ⟨2, ![1, n]⟩ ![1]) (j : Fin n) :
    broadcastInDim ⟨2, ![1, n]⟩ ![1] h B (ix2 (0 : Fin 1) j) = B (ix1 j) :=
  broadcastInDim_apply _ h B (ix2 (0 : Fin 1) j) (ix1 j) (fun a => match a with
    | ⟨0, _⟩ => by show j.val = if n = 1 then 0 else j.val; rw [if_neg hn])

theorem bcast_scalar_apply {α : Type} {t : Shape} (y : (⟨0, ![]⟩ : Shape).Idx → α)
    (h : (⟨0, ![]⟩ : Shape).BroadcastsInDim t ![]) (i : t.Idx) :
    broadcastInDim t ![] h y i = y ix0 :=
  broadcastInDim_apply _ h y i ix0 (fun a => a.elim0)

theorem ofBits_one_f32 : Ideal.ofBits .f32 0x3F800000#32 = 1 := by
  simp [Ideal.ofBits, Ideal.ieee, -EReal.coe_mul]; norm_num

theorem logistic_host_apply {s : Shape} (O Z : FVec Ideal s .f32) (i : s.Idx) (hO : O i = 1) :
    Host.divf O (addf O (Host.exp (Host.negf Z))) i = Ideal.logistic (Z i) := by
  show Ideal.div (O i) (O i + Ideal.exp (-(Z i))) = Ideal.div 1 (1 + Ideal.exp (-(Z i)))
  rw [hO]

theorem lhs_dot_S1x4096_S4096x4096_S1x4096_1_0_0_1_n_n_0 (i : S1x4096.Idx) (q : dot_S1x4096_S4096x4096_S1x4096_1_0_0_1_n_n.contr.Idx) :
    (dot_S1x4096_S4096x4096_S1x4096_1_0_0_1_n_n.lhsIdx i q 0).val = (i 0).val := by
  unfold DotDims.lhsIdx
  rw [dif_neg (show ¬(0 : Fin S1x4096.rank) ∈ dot_S1x4096_S4096x4096_S1x4096_1_0_0_1_n_n.lhsBatch from List.not_mem_nil), dif_pos (show (0 : Fin S1x4096.rank) ∈ dot_S1x4096_S4096x4096_S1x4096_1_0_0_1_n_n.lhsNonContracting from List.mem_singleton.mpr rfl)]
  rfl

theorem lhs_dot_S1x4096_S4096x4096_S1x4096_1_0_0_1_n_n_1 (i : S1x4096.Idx) (q : dot_S1x4096_S4096x4096_S1x4096_1_0_0_1_n_n.contr.Idx) :
    (dot_S1x4096_S4096x4096_S1x4096_1_0_0_1_n_n.lhsIdx i q 1).val = (q ⟨0, Nat.one_pos⟩).val :=
  dot_S1x4096_S4096x4096_S1x4096_1_0_0_1_n_n.lhsIdx_val_of_single rfl i q

theorem rhs_dot_S1x4096_S4096x4096_S1x4096_1_0_0_1_n_n_0 (i : S1x4096.Idx) (q : dot_S1x4096_S4096x4096_S1x4096_1_0_0_1_n_n.contr.Idx) :
    (dot_S1x4096_S4096x4096_S1x4096_1_0_0_1_n_n.rhsIdx i q 0).val = (q ⟨0, Nat.one_pos⟩).val :=
  dot_S1x4096_S4096x4096_S1x4096_1_0_0_1_n_n.rhsIdx_val_of_single rfl i q

theorem rhs_dot_S1x4096_S4096x4096_S1x4096_1_0_0_1_n_n_1 (i : S1x4096.Idx) (q : dot_S1x4096_S4096x4096_S1x4096_1_0_0_1_n_n.contr.Idx) :
    (dot_S1x4096_S4096x4096_S1x4096_1_0_0_1_n_n.rhsIdx i q 1).val = (i 1).val := by
  unfold DotDims.rhsIdx
  rw [dif_neg (show ¬(1 : Fin S4096x4096.rank) ∈ dot_S1x4096_S4096x4096_S1x4096_1_0_0_1_n_n.rhsBatch from List.not_mem_nil), dif_pos (show (1 : Fin S4096x4096.rank) ∈ dot_S1x4096_S4096x4096_S1x4096_1_0_0_1_n_n.rhsNonContracting from List.mem_singleton.mpr rfl)]
  rfl

theorem dot0_apply (X : Vec Ideal S1x4096 .f32) (E : Vec Ideal S4096x4096 .f32) (j : Fin 4096) :
    Host.dotGeneral (F := Ideal) (φ₁ := .f32) (φ₂ := .f32) dot_S1x4096_S4096x4096_S1x4096_1_0_0_1_n_n none X E (ix2 (0 : Fin 1) j)
      = ∑ k : Fin 4096, X (ix2 (0 : Fin 1) k) * E (ix2 k j) := by
  simp only [Host.dotGeneral]
  rw [Ideal.dotGeneral_apply, ← Equiv.sum_comp (contrEquiv1 dot_S1x4096_S4096x4096_S1x4096_1_0_0_1_n_n 4096 rfl rfl).symm]
  refine Finset.sum_congr rfl fun k _ => ?_
  have hk := contrEquiv1_symm_val dot_S1x4096_S4096x4096_S1x4096_1_0_0_1_n_n 4096 rfl rfl k
  have el : dot_S1x4096_S4096x4096_S1x4096_1_0_0_1_n_n.lhsIdx (ix2 (0 : Fin 1) j) ((contrEquiv1 dot_S1x4096_S4096x4096_S1x4096_1_0_0_1_n_n 4096 rfl rfl).symm k) = ix2 (0 : Fin 1) k := funext fun a => Fin.ext (by
    match a with
    | ⟨0, _⟩ => exact lhs_dot_S1x4096_S4096x4096_S1x4096_1_0_0_1_n_n_0 _ _
    | ⟨1, _⟩ => exact (lhs_dot_S1x4096_S4096x4096_S1x4096_1_0_0_1_n_n_1 _ _).trans hk)
  have er : dot_S1x4096_S4096x4096_S1x4096_1_0_0_1_n_n.rhsIdx (ix2 (0 : Fin 1) j) ((contrEquiv1 dot_S1x4096_S4096x4096_S1x4096_1_0_0_1_n_n 4096 rfl rfl).symm k) = ix2 k j := funext fun a => Fin.ext (by
    match a with
    | ⟨0, _⟩ => exact (rhs_dot_S1x4096_S4096x4096_S1x4096_1_0_0_1_n_n_0 _ _).trans hk
    | ⟨1, _⟩ => exact rhs_dot_S1x4096_S4096x4096_S1x4096_1_0_0_1_n_n_1 _ _)
  rw [el, er]

theorem lhs_dot_S1x4096_S4096x2048_S1x2048_1_0_0_1_n_n_0 (i : S1x2048.Idx) (q : dot_S1x4096_S4096x2048_S1x2048_1_0_0_1_n_n.contr.Idx) :
    (dot_S1x4096_S4096x2048_S1x2048_1_0_0_1_n_n.lhsIdx i q 0).val = (i 0).val := by
  unfold DotDims.lhsIdx
  rw [dif_neg (show ¬(0 : Fin S1x4096.rank) ∈ dot_S1x4096_S4096x2048_S1x2048_1_0_0_1_n_n.lhsBatch from List.not_mem_nil), dif_pos (show (0 : Fin S1x4096.rank) ∈ dot_S1x4096_S4096x2048_S1x2048_1_0_0_1_n_n.lhsNonContracting from List.mem_singleton.mpr rfl)]
  rfl

theorem lhs_dot_S1x4096_S4096x2048_S1x2048_1_0_0_1_n_n_1 (i : S1x2048.Idx) (q : dot_S1x4096_S4096x2048_S1x2048_1_0_0_1_n_n.contr.Idx) :
    (dot_S1x4096_S4096x2048_S1x2048_1_0_0_1_n_n.lhsIdx i q 1).val = (q ⟨0, Nat.one_pos⟩).val :=
  dot_S1x4096_S4096x2048_S1x2048_1_0_0_1_n_n.lhsIdx_val_of_single rfl i q

theorem rhs_dot_S1x4096_S4096x2048_S1x2048_1_0_0_1_n_n_0 (i : S1x2048.Idx) (q : dot_S1x4096_S4096x2048_S1x2048_1_0_0_1_n_n.contr.Idx) :
    (dot_S1x4096_S4096x2048_S1x2048_1_0_0_1_n_n.rhsIdx i q 0).val = (q ⟨0, Nat.one_pos⟩).val :=
  dot_S1x4096_S4096x2048_S1x2048_1_0_0_1_n_n.rhsIdx_val_of_single rfl i q

theorem rhs_dot_S1x4096_S4096x2048_S1x2048_1_0_0_1_n_n_1 (i : S1x2048.Idx) (q : dot_S1x4096_S4096x2048_S1x2048_1_0_0_1_n_n.contr.Idx) :
    (dot_S1x4096_S4096x2048_S1x2048_1_0_0_1_n_n.rhsIdx i q 1).val = (i 1).val := by
  unfold DotDims.rhsIdx
  rw [dif_neg (show ¬(1 : Fin S4096x2048.rank) ∈ dot_S1x4096_S4096x2048_S1x2048_1_0_0_1_n_n.rhsBatch from List.not_mem_nil), dif_pos (show (1 : Fin S4096x2048.rank) ∈ dot_S1x4096_S4096x2048_S1x2048_1_0_0_1_n_n.rhsNonContracting from List.mem_singleton.mpr rfl)]
  rfl

theorem dot1_apply (X : Vec Ideal S1x4096 .f32) (E : Vec Ideal S4096x2048 .f32) (j : Fin 2048) :
    Host.dotGeneral (F := Ideal) (φ₁ := .f32) (φ₂ := .f32) dot_S1x4096_S4096x2048_S1x2048_1_0_0_1_n_n none X E (ix2 (0 : Fin 1) j)
      = ∑ k : Fin 4096, X (ix2 (0 : Fin 1) k) * E (ix2 k j) := by
  simp only [Host.dotGeneral]
  rw [Ideal.dotGeneral_apply, ← Equiv.sum_comp (contrEquiv1 dot_S1x4096_S4096x2048_S1x2048_1_0_0_1_n_n 4096 rfl rfl).symm]
  refine Finset.sum_congr rfl fun k _ => ?_
  have hk := contrEquiv1_symm_val dot_S1x4096_S4096x2048_S1x2048_1_0_0_1_n_n 4096 rfl rfl k
  have el : dot_S1x4096_S4096x2048_S1x2048_1_0_0_1_n_n.lhsIdx (ix2 (0 : Fin 1) j) ((contrEquiv1 dot_S1x4096_S4096x2048_S1x2048_1_0_0_1_n_n 4096 rfl rfl).symm k) = ix2 (0 : Fin 1) k := funext fun a => Fin.ext (by
    match a with
    | ⟨0, _⟩ => exact lhs_dot_S1x4096_S4096x2048_S1x2048_1_0_0_1_n_n_0 _ _
    | ⟨1, _⟩ => exact (lhs_dot_S1x4096_S4096x2048_S1x2048_1_0_0_1_n_n_1 _ _).trans hk)
  have er : dot_S1x4096_S4096x2048_S1x2048_1_0_0_1_n_n.rhsIdx (ix2 (0 : Fin 1) j) ((contrEquiv1 dot_S1x4096_S4096x2048_S1x2048_1_0_0_1_n_n 4096 rfl rfl).symm k) = ix2 k j := funext fun a => Fin.ext (by
    match a with
    | ⟨0, _⟩ => exact (rhs_dot_S1x4096_S4096x2048_S1x2048_1_0_0_1_n_n_0 _ _).trans hk
    | ⟨1, _⟩ => exact rhs_dot_S1x4096_S4096x2048_S1x2048_1_0_0_1_n_n_1 _ _)
  rw [el, er]

theorem lhs_dot_S1x2048_S2048x6144_S1x6144_1_0_0_1_n_n_0 (i : S1x6144.Idx) (q : dot_S1x2048_S2048x6144_S1x6144_1_0_0_1_n_n.contr.Idx) :
    (dot_S1x2048_S2048x6144_S1x6144_1_0_0_1_n_n.lhsIdx i q 0).val = (i 0).val := by
  unfold DotDims.lhsIdx
  rw [dif_neg (show ¬(0 : Fin S1x2048.rank) ∈ dot_S1x2048_S2048x6144_S1x6144_1_0_0_1_n_n.lhsBatch from List.not_mem_nil), dif_pos (show (0 : Fin S1x2048.rank) ∈ dot_S1x2048_S2048x6144_S1x6144_1_0_0_1_n_n.lhsNonContracting from List.mem_singleton.mpr rfl)]
  rfl

theorem lhs_dot_S1x2048_S2048x6144_S1x6144_1_0_0_1_n_n_1 (i : S1x6144.Idx) (q : dot_S1x2048_S2048x6144_S1x6144_1_0_0_1_n_n.contr.Idx) :
    (dot_S1x2048_S2048x6144_S1x6144_1_0_0_1_n_n.lhsIdx i q 1).val = (q ⟨0, Nat.one_pos⟩).val :=
  dot_S1x2048_S2048x6144_S1x6144_1_0_0_1_n_n.lhsIdx_val_of_single rfl i q

theorem rhs_dot_S1x2048_S2048x6144_S1x6144_1_0_0_1_n_n_0 (i : S1x6144.Idx) (q : dot_S1x2048_S2048x6144_S1x6144_1_0_0_1_n_n.contr.Idx) :
    (dot_S1x2048_S2048x6144_S1x6144_1_0_0_1_n_n.rhsIdx i q 0).val = (q ⟨0, Nat.one_pos⟩).val :=
  dot_S1x2048_S2048x6144_S1x6144_1_0_0_1_n_n.rhsIdx_val_of_single rfl i q

theorem rhs_dot_S1x2048_S2048x6144_S1x6144_1_0_0_1_n_n_1 (i : S1x6144.Idx) (q : dot_S1x2048_S2048x6144_S1x6144_1_0_0_1_n_n.contr.Idx) :
    (dot_S1x2048_S2048x6144_S1x6144_1_0_0_1_n_n.rhsIdx i q 1).val = (i 1).val := by
  unfold DotDims.rhsIdx
  rw [dif_neg (show ¬(1 : Fin S2048x6144.rank) ∈ dot_S1x2048_S2048x6144_S1x6144_1_0_0_1_n_n.rhsBatch from List.not_mem_nil), dif_pos (show (1 : Fin S2048x6144.rank) ∈ dot_S1x2048_S2048x6144_S1x6144_1_0_0_1_n_n.rhsNonContracting from List.mem_singleton.mpr rfl)]
  rfl

theorem dot3_apply (X : Vec Ideal S1x2048 .f32) (E : Vec Ideal S2048x6144 .f32) (j : Fin 6144) :
    Host.dotGeneral (F := Ideal) (φ₁ := .f32) (φ₂ := .f32) dot_S1x2048_S2048x6144_S1x6144_1_0_0_1_n_n none X E (ix2 (0 : Fin 1) j)
      = ∑ k : Fin 2048, X (ix2 (0 : Fin 1) k) * E (ix2 k j) := by
  simp only [Host.dotGeneral]
  rw [Ideal.dotGeneral_apply, ← Equiv.sum_comp (contrEquiv1 dot_S1x2048_S2048x6144_S1x6144_1_0_0_1_n_n 2048 rfl rfl).symm]
  refine Finset.sum_congr rfl fun k _ => ?_
  have hk := contrEquiv1_symm_val dot_S1x2048_S2048x6144_S1x6144_1_0_0_1_n_n 2048 rfl rfl k
  have el : dot_S1x2048_S2048x6144_S1x6144_1_0_0_1_n_n.lhsIdx (ix2 (0 : Fin 1) j) ((contrEquiv1 dot_S1x2048_S2048x6144_S1x6144_1_0_0_1_n_n 2048 rfl rfl).symm k) = ix2 (0 : Fin 1) k := funext fun a => Fin.ext (by
    match a with
    | ⟨0, _⟩ => exact lhs_dot_S1x2048_S2048x6144_S1x6144_1_0_0_1_n_n_0 _ _
    | ⟨1, _⟩ => exact (lhs_dot_S1x2048_S2048x6144_S1x6144_1_0_0_1_n_n_1 _ _).trans hk)
  have er : dot_S1x2048_S2048x6144_S1x6144_1_0_0_1_n_n.rhsIdx (ix2 (0 : Fin 1) j) ((contrEquiv1 dot_S1x2048_S2048x6144_S1x6144_1_0_0_1_n_n 2048 rfl rfl).symm k) = ix2 k j := funext fun a => Fin.ext (by
    match a with
    | ⟨0, _⟩ => exact (rhs_dot_S1x2048_S2048x6144_S1x6144_1_0_0_1_n_n_0 _ _).trans hk
    | ⟨1, _⟩ => exact rhs_dot_S1x2048_S2048x6144_S1x6144_1_0_0_1_n_n_1 _ _)
  rw [el, er]

theorem lhs_dot_S1x2048_S2048x8192_S1x8192_1_0_0_1_n_n_0 (i : S1x8192.Idx) (q : dot_S1x2048_S2048x8192_S1x8192_1_0_0_1_n_n.contr.Idx) :
    (dot_S1x2048_S2048x8192_S1x8192_1_0_0_1_n_n.lhsIdx i q 0).val = (i 0).val := by
  unfold DotDims.lhsIdx
  rw [dif_neg (show ¬(0 : Fin S1x2048.rank) ∈ dot_S1x2048_S2048x8192_S1x8192_1_0_0_1_n_n.lhsBatch from List.not_mem_nil), dif_pos (show (0 : Fin S1x2048.rank) ∈ dot_S1x2048_S2048x8192_S1x8192_1_0_0_1_n_n.lhsNonContracting from List.mem_singleton.mpr rfl)]
  rfl

theorem lhs_dot_S1x2048_S2048x8192_S1x8192_1_0_0_1_n_n_1 (i : S1x8192.Idx) (q : dot_S1x2048_S2048x8192_S1x8192_1_0_0_1_n_n.contr.Idx) :
    (dot_S1x2048_S2048x8192_S1x8192_1_0_0_1_n_n.lhsIdx i q 1).val = (q ⟨0, Nat.one_pos⟩).val :=
  dot_S1x2048_S2048x8192_S1x8192_1_0_0_1_n_n.lhsIdx_val_of_single rfl i q

theorem rhs_dot_S1x2048_S2048x8192_S1x8192_1_0_0_1_n_n_0 (i : S1x8192.Idx) (q : dot_S1x2048_S2048x8192_S1x8192_1_0_0_1_n_n.contr.Idx) :
    (dot_S1x2048_S2048x8192_S1x8192_1_0_0_1_n_n.rhsIdx i q 0).val = (q ⟨0, Nat.one_pos⟩).val :=
  dot_S1x2048_S2048x8192_S1x8192_1_0_0_1_n_n.rhsIdx_val_of_single rfl i q

theorem rhs_dot_S1x2048_S2048x8192_S1x8192_1_0_0_1_n_n_1 (i : S1x8192.Idx) (q : dot_S1x2048_S2048x8192_S1x8192_1_0_0_1_n_n.contr.Idx) :
    (dot_S1x2048_S2048x8192_S1x8192_1_0_0_1_n_n.rhsIdx i q 1).val = (i 1).val := by
  unfold DotDims.rhsIdx
  rw [dif_neg (show ¬(1 : Fin S2048x8192.rank) ∈ dot_S1x2048_S2048x8192_S1x8192_1_0_0_1_n_n.rhsBatch from List.not_mem_nil), dif_pos (show (1 : Fin S2048x8192.rank) ∈ dot_S1x2048_S2048x8192_S1x8192_1_0_0_1_n_n.rhsNonContracting from List.mem_singleton.mpr rfl)]
  rfl

theorem dot4_apply (X : Vec Ideal S1x2048 .f32) (E : Vec Ideal S2048x8192 .f32) (j : Fin 8192) :
    Host.dotGeneral (F := Ideal) (φ₁ := .f32) (φ₂ := .f32) dot_S1x2048_S2048x8192_S1x8192_1_0_0_1_n_n none X E (ix2 (0 : Fin 1) j)
      = ∑ k : Fin 2048, X (ix2 (0 : Fin 1) k) * E (ix2 k j) := by
  simp only [Host.dotGeneral]
  rw [Ideal.dotGeneral_apply, ← Equiv.sum_comp (contrEquiv1 dot_S1x2048_S2048x8192_S1x8192_1_0_0_1_n_n 2048 rfl rfl).symm]
  refine Finset.sum_congr rfl fun k _ => ?_
  have hk := contrEquiv1_symm_val dot_S1x2048_S2048x8192_S1x8192_1_0_0_1_n_n 2048 rfl rfl k
  have el : dot_S1x2048_S2048x8192_S1x8192_1_0_0_1_n_n.lhsIdx (ix2 (0 : Fin 1) j) ((contrEquiv1 dot_S1x2048_S2048x8192_S1x8192_1_0_0_1_n_n 2048 rfl rfl).symm k) = ix2 (0 : Fin 1) k := funext fun a => Fin.ext (by
    match a with
    | ⟨0, _⟩ => exact lhs_dot_S1x2048_S2048x8192_S1x8192_1_0_0_1_n_n_0 _ _
    | ⟨1, _⟩ => exact (lhs_dot_S1x2048_S2048x8192_S1x8192_1_0_0_1_n_n_1 _ _).trans hk)
  have er : dot_S1x2048_S2048x8192_S1x8192_1_0_0_1_n_n.rhsIdx (ix2 (0 : Fin 1) j) ((contrEquiv1 dot_S1x2048_S2048x8192_S1x8192_1_0_0_1_n_n 2048 rfl rfl).symm k) = ix2 k j := funext fun a => Fin.ext (by
    match a with
    | ⟨0, _⟩ => exact (rhs_dot_S1x2048_S2048x8192_S1x8192_1_0_0_1_n_n_0 _ _).trans hk
    | ⟨1, _⟩ => exact rhs_dot_S1x2048_S2048x8192_S1x8192_1_0_0_1_n_n_1 _ _)
  rw [el, er]

theorem lhs_dot_S1x8192_S8192x8192_S1x8192_1_0_0_1_n_n_0 (i : S1x8192.Idx) (q : dot_S1x8192_S8192x8192_S1x8192_1_0_0_1_n_n.contr.Idx) :
    (dot_S1x8192_S8192x8192_S1x8192_1_0_0_1_n_n.lhsIdx i q 0).val = (i 0).val := by
  unfold DotDims.lhsIdx
  rw [dif_neg (show ¬(0 : Fin S1x8192.rank) ∈ dot_S1x8192_S8192x8192_S1x8192_1_0_0_1_n_n.lhsBatch from List.not_mem_nil), dif_pos (show (0 : Fin S1x8192.rank) ∈ dot_S1x8192_S8192x8192_S1x8192_1_0_0_1_n_n.lhsNonContracting from List.mem_singleton.mpr rfl)]
  rfl

theorem lhs_dot_S1x8192_S8192x8192_S1x8192_1_0_0_1_n_n_1 (i : S1x8192.Idx) (q : dot_S1x8192_S8192x8192_S1x8192_1_0_0_1_n_n.contr.Idx) :
    (dot_S1x8192_S8192x8192_S1x8192_1_0_0_1_n_n.lhsIdx i q 1).val = (q ⟨0, Nat.one_pos⟩).val :=
  dot_S1x8192_S8192x8192_S1x8192_1_0_0_1_n_n.lhsIdx_val_of_single rfl i q

theorem rhs_dot_S1x8192_S8192x8192_S1x8192_1_0_0_1_n_n_0 (i : S1x8192.Idx) (q : dot_S1x8192_S8192x8192_S1x8192_1_0_0_1_n_n.contr.Idx) :
    (dot_S1x8192_S8192x8192_S1x8192_1_0_0_1_n_n.rhsIdx i q 0).val = (q ⟨0, Nat.one_pos⟩).val :=
  dot_S1x8192_S8192x8192_S1x8192_1_0_0_1_n_n.rhsIdx_val_of_single rfl i q

theorem rhs_dot_S1x8192_S8192x8192_S1x8192_1_0_0_1_n_n_1 (i : S1x8192.Idx) (q : dot_S1x8192_S8192x8192_S1x8192_1_0_0_1_n_n.contr.Idx) :
    (dot_S1x8192_S8192x8192_S1x8192_1_0_0_1_n_n.rhsIdx i q 1).val = (i 1).val := by
  unfold DotDims.rhsIdx
  rw [dif_neg (show ¬(1 : Fin S8192x8192.rank) ∈ dot_S1x8192_S8192x8192_S1x8192_1_0_0_1_n_n.rhsBatch from List.not_mem_nil), dif_pos (show (1 : Fin S8192x8192.rank) ∈ dot_S1x8192_S8192x8192_S1x8192_1_0_0_1_n_n.rhsNonContracting from List.mem_singleton.mpr rfl)]
  rfl

theorem dot5_apply (X : Vec Ideal S1x8192 .f32) (E : Vec Ideal S8192x8192 .f32) (j : Fin 8192) :
    Host.dotGeneral (F := Ideal) (φ₁ := .f32) (φ₂ := .f32) dot_S1x8192_S8192x8192_S1x8192_1_0_0_1_n_n none X E (ix2 (0 : Fin 1) j)
      = ∑ k : Fin 8192, X (ix2 (0 : Fin 1) k) * E (ix2 k j) := by
  simp only [Host.dotGeneral]
  rw [Ideal.dotGeneral_apply, ← Equiv.sum_comp (contrEquiv1 dot_S1x8192_S8192x8192_S1x8192_1_0_0_1_n_n 8192 rfl rfl).symm]
  refine Finset.sum_congr rfl fun k _ => ?_
  have hk := contrEquiv1_symm_val dot_S1x8192_S8192x8192_S1x8192_1_0_0_1_n_n 8192 rfl rfl k
  have el : dot_S1x8192_S8192x8192_S1x8192_1_0_0_1_n_n.lhsIdx (ix2 (0 : Fin 1) j) ((contrEquiv1 dot_S1x8192_S8192x8192_S1x8192_1_0_0_1_n_n 8192 rfl rfl).symm k) = ix2 (0 : Fin 1) k := funext fun a => Fin.ext (by
    match a with
    | ⟨0, _⟩ => exact lhs_dot_S1x8192_S8192x8192_S1x8192_1_0_0_1_n_n_0 _ _
    | ⟨1, _⟩ => exact (lhs_dot_S1x8192_S8192x8192_S1x8192_1_0_0_1_n_n_1 _ _).trans hk)
  have er : dot_S1x8192_S8192x8192_S1x8192_1_0_0_1_n_n.rhsIdx (ix2 (0 : Fin 1) j) ((contrEquiv1 dot_S1x8192_S8192x8192_S1x8192_1_0_0_1_n_n 8192 rfl rfl).symm k) = ix2 k j := funext fun a => Fin.ext (by
    match a with
    | ⟨0, _⟩ => exact (rhs_dot_S1x8192_S8192x8192_S1x8192_1_0_0_1_n_n_0 _ _).trans hk
    | ⟨1, _⟩ => exact rhs_dot_S1x8192_S8192x8192_S1x8192_1_0_0_1_n_n_1 _ _)
  rw [el, er]

theorem ref0_apply (X : Vec Ideal S1x4096 .f32) (Wt : Vec Ideal S4096x4096 .f32) (B : Vec Ideal S4096 .f32) (j : Fin 4096) :
    addf (Host.dotGeneral (F := Ideal) (φ₁ := .f32) (φ₂ := .f32) dot_S1x4096_S4096x4096_S1x4096_1_0_0_1_n_n none X (transpose S4096x4096 [1, 0] Wt transposes_S4096x4096_S4096x4096_1_0)) (broadcastInDim S1x4096 ![1] bcast_S4096_S1x4096_1 B) (ix2 (0 : Fin 1) j)
      = (∑ k : Fin 4096, X (ix2 (0 : Fin 1) k) * Wt (ix2 j k)) + B (ix1 j) := by
  refine (addf_apply _ _ _).trans ?_
  refine congrArg₂ (· + ·) ((dot0_apply X _ j).trans (Finset.sum_congr rfl fun k _ => congrArg (X (ix2 (0 : Fin 1) k) * ·) ?_)) ?_
  · exact transpose_swap_apply Wt transposes_S4096x4096_S4096x4096_1_0 k j
  · exact bcast_row_apply (by decide) B bcast_S4096_S1x4096_1 j

theorem ref1_apply (X : Vec Ideal S1x4096 .f32) (E : Vec Ideal S4096x2048 .f32) (j : Fin 2048) :
    Host.dotGeneral (F := Ideal) (φ₁ := .f32) (φ₂ := .f32) dot_S1x4096_S4096x2048_S1x2048_1_0_0_1_n_n none X E (ix2 (0 : Fin 1) j)
      = ∑ k : Fin 4096, X (ix2 (0 : Fin 1) k) * E (ix2 k j) :=
  dot1_apply X E j

theorem aff2_apply (X : Vec Ideal S1x4096 .f32) (Wt : Vec Ideal S2048x4096 .f32) (B : Vec Ideal S2048 .f32) (j : Fin 2048) :
    addf (Host.dotGeneral (F := Ideal) (φ₁ := .f32) (φ₂ := .f32) dot_S1x4096_S4096x2048_S1x2048_1_0_0_1_n_n none X (transpose S4096x2048 [1, 0] Wt transposes_S2048x4096_S4096x2048_1_0)) (broadcastInDim S1x2048 ![1] bcast_S2048_S1x2048_1 B) (ix2 (0 : Fin 1) j)
      = (∑ k : Fin 4096, X (ix2 (0 : Fin 1) k) * Wt (ix2 j k)) + B (ix1 j) := by
  refine (addf_apply _ _ _).trans ?_
  refine congrArg₂ (· + ·) ((dot1_apply X _ j).trans (Finset.sum_congr rfl fun k _ => congrArg (X (ix2 (0 : Fin 1) k) * ·) ?_)) ?_
  · exact transpose_swap_apply Wt transposes_S2048x4096_S4096x2048_1_0 k j
  · exact bcast_row_apply (by decide) B bcast_S2048_S1x2048_1 j

theorem ref2_apply (X : Vec Ideal S1x4096 .f32) (Wt : Vec Ideal S2048x4096 .f32) (B : Vec Ideal S2048 .f32) (j : Fin 2048) :
    maximumf (addf (Host.dotGeneral (F := Ideal) (φ₁ := .f32) (φ₂ := .f32) dot_S1x4096_S4096x2048_S1x2048_1_0_0_1_n_n none X (transpose S4096x2048 [1, 0] Wt transposes_S2048x4096_S4096x2048_1_0)) (broadcastInDim S1x2048 ![1] bcast_S2048_S1x2048_1 B)) (broadcastInDim S1x2048 ![] bcast_S_S1x2048 (constant (F := Ideal) S_ .f32 0x00000000#32)) (ix2 (0 : Fin 1) j)
      = max ((∑ k : Fin 4096, X (ix2 (0 : Fin 1) k) * Wt (ix2 j k)) + B (ix1 j)) 0 := by
  refine (maximumf_apply _ _ _).trans ?_
  refine congrArg₂ max (aff2_apply X Wt B j) ?_
  exact (bcast_scalar_apply _ bcast_S_S1x2048 _).trans ((constant_apply _ _).trans Ideal.ofBits_zero_f32)

theorem ref3_apply (X : Vec Ideal S1x2048 .f32) (Wt : Vec Ideal S6144x2048 .f32) (B : Vec Ideal S6144 .f32) (j : Fin 6144) :
    addf (Host.dotGeneral (F := Ideal) (φ₁ := .f32) (φ₂ := .f32) dot_S1x2048_S2048x6144_S1x6144_1_0_0_1_n_n none X (transpose S2048x6144 [1, 0] Wt transposes_S6144x2048_S2048x6144_1_0)) (broadcastInDim S1x6144 ![1] bcast_S6144_S1x6144_1 B) (ix2 (0 : Fin 1) j)
      = (∑ k : Fin 2048, X (ix2 (0 : Fin 1) k) * Wt (ix2 j k)) + B (ix1 j) := by
  refine (addf_apply _ _ _).trans ?_
  refine congrArg₂ (· + ·) ((dot3_apply X _ j).trans (Finset.sum_congr rfl fun k _ => congrArg (X (ix2 (0 : Fin 1) k) * ·) ?_)) ?_
  · exact transpose_swap_apply Wt transposes_S6144x2048_S2048x6144_1_0 k j
  · exact bcast_row_apply (by decide) B bcast_S6144_S1x6144_1 j

theorem ref4_apply (X : Vec Ideal S1x2048 .f32) (Wt : Vec Ideal S8192x2048 .f32) (B : Vec Ideal S8192 .f32) (j : Fin 8192) :
    addf (Host.dotGeneral (F := Ideal) (φ₁ := .f32) (φ₂ := .f32) dot_S1x2048_S2048x8192_S1x8192_1_0_0_1_n_n none X (transpose S2048x8192 [1, 0] Wt transposes_S8192x2048_S2048x8192_1_0)) (broadcastInDim S1x8192 ![1] bcast_S8192_S1x8192_1 B) (ix2 (0 : Fin 1) j)
      = (∑ k : Fin 2048, X (ix2 (0 : Fin 1) k) * Wt (ix2 j k)) + B (ix1 j) := by
  refine (addf_apply _ _ _).trans ?_
  refine congrArg₂ (· + ·) ((dot4_apply X _ j).trans (Finset.sum_congr rfl fun k _ => congrArg (X (ix2 (0 : Fin 1) k) * ·) ?_)) ?_
  · exact transpose_swap_apply Wt transposes_S8192x2048_S2048x8192_1_0 k j
  · exact bcast_row_apply (by decide) B bcast_S8192_S1x8192_1 j

theorem aff5_apply (X : Vec Ideal S1x8192 .f32) (Wt : Vec Ideal S8192x8192 .f32) (B : Vec Ideal S8192 .f32) (j : Fin 8192) :
    addf (Host.dotGeneral (F := Ideal) (φ₁ := .f32) (φ₂ := .f32) dot_S1x8192_S8192x8192_S1x8192_1_0_0_1_n_n none X (transpose S8192x8192 [1, 0] Wt transposes_S8192x8192_S8192x8192_1_0)) (broadcastInDim S1x8192 ![1] bcast_S8192_S1x8192_1 B) (ix2 (0 : Fin 1) j)
      = (∑ k : Fin 8192, X (ix2 (0 : Fin 1) k) * Wt (ix2 j k)) + B (ix1 j) := by
  refine (addf_apply _ _ _).trans ?_
  refine congrArg₂ (· + ·) ((dot5_apply X _ j).trans (Finset.sum_congr rfl fun k _ => congrArg (X (ix2 (0 : Fin 1) k) * ·) ?_)) ?_
  · exact transpose_swap_apply Wt transposes_S8192x8192_S8192x8192_1_0 k j
  · exact bcast_row_apply (by decide) B bcast_S8192_S1x8192_1 j

theorem ones_row_apply (j : Fin 8192) :
    broadcastInDim S1x8192 ![] bcast_S_S1x8192 (constant (F := Ideal) S_ .f32 0x3F800000#32) (ix2 (0 : Fin 1) j) = (1 : EReal) :=
  (bcast_scalar_apply _ bcast_S_S1x8192 _).trans ((constant_apply _ _).trans ofBits_one_f32)

theorem ref5_apply (X : Vec Ideal S1x8192 .f32) (Wt : Vec Ideal S8192x8192 .f32) (B : Vec Ideal S8192 .f32) (j : Fin 8192) :
    Host.divf (broadcastInDim S1x8192 ![] bcast_S_S1x8192 (constant (F := Ideal) S_ .f32 0x3F800000#32)) (addf (broadcastInDim S1x8192 ![] bcast_S_S1x8192 (constant (F := Ideal) S_ .f32 0x3F800000#32)) (Host.exp (Host.negf (addf (Host.dotGeneral (F := Ideal) (φ₁ := .f32) (φ₂ := .f32) dot_S1x8192_S8192x8192_S1x8192_1_0_0_1_n_n none X (transpose S8192x8192 [1, 0] Wt transposes_S8192x8192_S8192x8192_1_0)) (broadcastInDim S1x8192 ![1] bcast_S8192_S1x8192_1 B))))) (ix2 (0 : Fin 1) j)
      = Ideal.logistic ((∑ k : Fin 8192, X (ix2 (0 : Fin 1) k) * Wt (ix2 j k)) + B (ix1 j)) :=
  (logistic_host_apply _ _ _ (ones_row_apply j)).trans (congrArg Ideal.logistic (aff5_apply X Wt B j))

theorem row_bcast_8192 (B : Vec Ideal S8192 .f32) (j : Fin 8192) :
    broadcastInDim S1x8192 ![1] bcast_S8192_S1x8192_1 B (ix2 (0 : Fin 1) j) = B (ix1 j) :=
  bcast_row_apply (by decide) B bcast_S8192_S1x8192_1 j

end Cert.ReferenceIdeal.Val

end
-- ==== Proof.Val.RowOfVec.lean ====
import proofs.«416939_j18966575579384_3_alg».proof.KernelIdeal
import Idealize.ShloMosaic.Lib.Pipeline.Value
import Idealize.ShloMosaic.Lib.ValueIdx

noncomputable section

namespace Cert.KernelIdeal.Val

open Cert.KernelIdeal Cert.KernelIdeal.Facts₀ Idealize.ShloMosaic Idealize.ShloMosaic.ValueIdx

variable [Facts₀]

theorem reshape_row_apply {α : Type} {n : Nat} (B : (⟨1, ![n]⟩ : Shape).Idx → α)
    (h : (⟨1, ![n]⟩ : Shape).ShapeCasts ⟨2, ![1, n]⟩) (j : Fin n) :
    shapeCast ⟨2, ![1, n]⟩ B h (ix2 (0 : Fin 1) j) = B (ix1 j) :=
  shapeCast_apply B h (ix2 (0 : Fin 1) j) (ix1 j) (by
    rw [Shape.rowMajor_val_one, Shape.rowMajor_val_two]
    show j.val = 0 * n + j.val
    omega)

theorem row_of_vec_4096 (B : Vec Ideal S4096 .f32) (j : Fin 4096) :
    shapeCast S1x4096 B shapeCasts_S4096_S1x4096 (ix2 (0 : Fin 1) j) = B (ix1 j) :=
  reshape_row_apply B shapeCasts_S4096_S1x4096 j

theorem row_of_vec_2048 (B : Vec Ideal S2048 .f32) (j : Fin 2048) :
    shapeCast S1x2048 B shapeCasts_S2048_S1x2048 (ix2 (0 : Fin 1) j) = B (ix1 j) :=
  reshape_row_apply B shapeCasts_S2048_S1x2048 j

theorem row_of_vec_6144 (B : Vec Ideal S6144 .f32) (j : Fin 6144) :
    shapeCast S1x6144 B shapeCasts_S6144_S1x6144 (ix2 (0 : Fin 1) j) = B (ix1 j) :=
  reshape_row_apply B shapeCasts_S6144_S1x6144 j

theorem row_of_vec_8192 (B : Vec Ideal S8192 .f32) (j : Fin 8192) :
    shapeCast S1x8192 B shapeCasts_S8192_S1x8192 (ix2 (0 : Fin 1) j) = B (ix1 j) :=
  reshape_row_apply B shapeCasts_S8192_S1x8192 j

end Cert.KernelIdeal.Val

end
-- ==== Proof.Val.Chain0.lean ====
import proofs.«416939_j18966575579384_3_alg».proof.Proof.KI.Run
import proofs.«416939_j18966575579384_3_alg».proof.Proof.RefRead
import proofs.«416939_j18966575579384_3_alg».proof.Proof.Val.Stages
import proofs.«416939_j18966575579384_3_alg».proof.Proof.Val.StagesRef
import proofs.«416939_j18966575579384_3_alg».proof.Proof.Val.Operands
import proofs.«416939_j18966575579384_3_alg».proof.Proof.Val.Closed
import proofs.«416939_j18966575579384_3_alg».proof.Proof.Val.Closed1
import proofs.«416939_j18966575579384_3_alg».proof.Proof.Val.RefForm
import proofs.«416939_j18966575579384_3_alg».proof.Proof.Val.RowOfVec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

theorem G0_congr {x x' : Vec Ideal S1x4096 .f32} {w w' : Vec Ideal S4096x4096 .bf16} {b b' : Vec Ideal S1x4096 .f32}
    (hx : x = x') (hw : w = w') (hb : b = b') : G0 x w b = G0 x' w' b' := by subst hx hw hb; rfl
theorem G1_congr {x x' : Vec Ideal S1x4096 .f32} {w w' : Vec Ideal S4096x2048 .bf16}
    (hx : x = x') (hw : w = w') : G1 x w = G1 x' w' := by subst hx hw; rfl
theorem G2_congr {x x' : Vec Ideal S1x4096 .f32} {w w' : Vec Ideal S2048x4096 .bf16} {b b' : Vec Ideal S1x2048 .f32}
    (hx : x = x') (hw : w = w') (hb : b = b') : G2 x w b = G2 x' w' b' := by subst hx hw hb; rfl

theorem reg0_eq :
    W2 m ρ c (Proc.devRef .tc main_v21) = Cert.ReferenceIdeal.ReadP.val_main_v16 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  funext i
  obtain ⟨p, j, rfl⟩ : ∃ (p : Fin 1) (j : Fin 4096), i = ix2 p j := ⟨i 0, i 1, eq_ix2 i⟩
  obtain rfl : p = 0 := Subsingleton.elim _ _
  refine (congrFun (W2_arr m ρ c 3) _).trans ?_
  refine (closed0 (V1 m ρ) c j).trans ?_
  rw [G0_congr (op0_x m ρ c) (op0_w m ρ c) (op0_b m ρ c), G0_apply]
  unfold Cert.ReferenceIdeal.ReadP.val_main_v16 Cert.ReferenceIdeal.ReadP.val_main_v14 Cert.ReferenceIdeal.ReadP.val_main_v13 Cert.ReferenceIdeal.ReadP.val_main_v15
  refine Eq.trans ?_ (Cert.ReferenceIdeal.Val.ref0_apply _ _ _ j).symm
  rw [ref_v12]
  show (_ : EReal) = _
  exact congrArg₂ (· + ·) rfl (row_of_vec_4096 _ j)

theorem reg1_eq :
    W4 m ρ c (Proc.devRef .tc main_v33) = Cert.ReferenceIdeal.ReadP.val_main_v28 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  funext i
  obtain ⟨p, j, rfl⟩ : ∃ (p : Fin 1) (j : Fin 2048), i = ix2 p j := ⟨i 0, i 1, eq_ix2 i⟩
  obtain rfl : p = 0 := Subsingleton.elim _ _
  refine (congrFun (W4_arr m ρ c 2) _).trans ?_
  refine (closed1 (V3 m ρ) c j).trans ?_
  rw [G1_congr (op1_x m ρ c) (op1_w m ρ c), G1_apply]
  unfold Cert.ReferenceIdeal.ReadP.val_main_v28
  refine Eq.trans ?_ (Cert.ReferenceIdeal.Val.ref1_apply _ _ j).symm
  rw [ref_v27, reg0_eq m ρ c]
  rfl

theorem reg2_eq :
    W6 m ρ c (Proc.devRef .tc main_v36) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨p, j, rfl⟩ : ∃ (p : Fin 1) (j : Fin 2048), i = ix2 p j := ⟨i 0, i 1, eq_ix2 i⟩
  obtain rfl : p = 0 := Subsingleton.elim _ _
  refine (congrFun (W6_arr m ρ c 3) _).trans ?_
  refine (closed2 (V5 m ρ) c j).trans ?_
  rw [G2_congr (op2_x m ρ c) (op2_w m ρ c) (op2_b m ρ c), G2_apply]
  unfold Cert.ReferenceIdeal.ReadP.val_main_v34 Cert.ReferenceIdeal.ReadP.val_main_v33 Cert.ReferenceIdeal.ReadP.val_main_v31 Cert.ReferenceIdeal.ReadP.val_main_v30 Cert.ReferenceIdeal.ReadP.val_main_v32 Cert.ReferenceIdeal.ReadP.val_main_call0_v0 Cert.ReferenceIdeal.ReadP.val_main_call0_cst
  refine Eq.trans ?_ (Cert.ReferenceIdeal.Val.ref2_apply _ _ _ j).symm
  rw [ref_v29, reg1_eq m ρ c]
  show (_ : EReal) = _
  exact congrArg₂ max (congrArg₂ (· + ·) rfl (row_of_vec_2048 _ j)) rfl

theorem chain32 :
    W13 m ρ c (Proc.devRef .tc main_v32) = Cert.ReferenceIdeal.ReadP.val_main_v27 (F := Ideal) (m ((c : Thread nD τ).loc main_arg0)) (m ((c : Thread nD τ).loc main_arg1)) (m ((c : Thread nD τ).loc main_arg5)) (m ((c : Thread nD τ).loc main_arg6)) (m ((c : Thread nD τ).loc main_arg7)) :=
  (res32 m ρ c).trans (by rw [reg0_eq m ρ c, ref_v27])

end Cert.KernelIdeal.Val
-- ==== Proof.Val.Chain3.lean ====
import proofs.«416939_j18966575579384_3_alg».proof.Proof.Val.Chain0
import proofs.«416939_j18966575579384_3_alg».proof.Proof.Val.Closed
import proofs.«416939_j18966575579384_3_alg».proof.Proof.Val.Operands
import proofs.«416939_j18966575579384_3_alg».proof.Proof.Val.StagesRef
import proofs.«416939_j18966575579384_3_alg».proof.Proof.Val.RefForm
import proofs.«416939_j18966575579384_3_alg».proof.Proof.Val.RowOfVec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe
open Idealize.SL Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

theorem row_h0 (c : Dev nD) :
    shapeCast S1x2048 (m ((c : Thread nD τ).loc main_arg1)) shapeCasts_S1x1x2048_S1x2048 = Cert.ReferenceIdeal.ReadP.val_main_v11 (F := Ideal) (m ((c : Thread nD τ).loc main_arg1)) := rfl

theorem row_hist (c : Dev nD) :
    shapeCast S1x8192 (m ((c : Thread nD τ).loc main_arg3)) shapeCasts_S8192_S1x8192 = Cert.ReferenceIdeal.ReadP.val_main_v75 (F := Ideal) (m ((c : Thread nD τ).loc main_arg3)) := by
  funext i
  obtain ⟨p, j, rfl⟩ : ∃ (p : Fin 1) (j : Fin 8192), i = ix2 p j := ⟨i 0, i 1, eq_ix2 i⟩
  obtain rfl : p = 0 := Subsingleton.elim _ _
  exact (row_of_vec_8192 _ j).trans (Cert.ReferenceIdeal.Val.row_bcast_8192 _ j).symm

theorem reg3a_eq (c : Dev nD) :
    W8 m ρ c (Proc.devRef .tc main_v39_0) = Cert.ReferenceIdeal.ReadP.val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) := by
  have hW : W8 m ρ c (Proc.devRef .tc main_v39_0) = (dat3 (F := Ideal) (Hand.V7 m ρ) c).arrAt 6 cfg3.N := W8_arr m ρ c 6
  rw [hW, final3_6, op3_x, op3_w1, op3_b1, reg2_eq]
  funext i
  obtain ⟨p, j, rfl⟩ : ∃ (p : Fin 1) (j : Fin 6144), i = ix2 p j := ⟨i 0, i 1, eq_ix2 i⟩
  obtain rfl : p = 0 := Subsingleton.elim _ _
  rw [G3_apply]
  refine Eq.trans ?_ (Cert.ReferenceIdeal.Val.ref3_apply (Cert.ReferenceIdeal.ReadP.val_main_v34 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg12)) j).symm
  rw [row_of_vec_6144]
  rfl

theorem reg3b_eq (c : Dev nD) :
    W8 m ρ c (Proc.devRef .tc main_v39_1) = Cert.ReferenceIdeal.ReadP.val_main_v42 (F := Ideal) (m ((c : Thread nD τ).loc main_arg1)) (m ((c : Thread nD τ).loc main_arg11)) (m ((c : Thread nD τ).loc main_arg13)) := by
  have hW : W8 m ρ c (Proc.devRef .tc main_v39_1) = (dat3 (F := Ideal) (Hand.V7 m ρ) c).arrAt 7 cfg3.N := W8_arr m ρ c 7
  rw [hW, final3_7, op3_h, op3_w2, op3_b2, row_h0]
  funext i
  obtain ⟨p, j, rfl⟩ : ∃ (p : Fin 1) (j : Fin 6144), i = ix2 p j := ⟨i 0, i 1, eq_ix2 i⟩
  obtain rfl : p = 0 := Subsingleton.elim _ _
  rw [G3_apply]
  refine Eq.trans ?_ (Cert.ReferenceIdeal.Val.ref3_apply (Cert.ReferenceIdeal.ReadP.val_main_v11 (F := Ideal) (m ((c : Thread nD τ).loc main_arg1))) (m ((c : Thread nD τ).loc main_arg11)) (m ((c : Thread nD τ).loc main_arg13)) j).symm
  rw [row_of_vec_6144]
  rfl

theorem reg4_eq (c : Dev nD) :
    W10 m ρ c (Proc.devRef .tc main_v69) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hW : W10 m ρ c (Proc.devRef .tc main_v69) = (dat4 (F := Ideal) (Hand.V9 m ρ) c).arrAt 3 cfg4.N := W10_arr m ρ c 3
  rw [hW, final4, op4_x, op4_w, op4_b, reg3a_eq, reg3b_eq, row_h0, ← ref_v70]
  funext i
  obtain ⟨p, j, rfl⟩ : ∃ (p : Fin 1) (j : Fin 8192), i = ix2 p j := ⟨i 0, i 1, eq_ix2 i⟩
  obtain rfl : p = 0 := Subsingleton.elim _ _
  rw [G4_apply]
  refine Eq.trans ?_ (Cert.ReferenceIdeal.Val.ref4_apply (Cert.ReferenceIdeal.ReadP.val_main_v70 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) (m ((c : Thread nD τ).loc main_arg15)) j).symm
  rw [row_of_vec_8192]
  rfl

theorem reg5_eq (c : Dev nD) :
    W12 m ρ c (Proc.devRef .tc main_v72) = Cert.ReferenceIdeal.ReadP.val_main_v85 (F := Ideal) (m ((c : Thread nD τ).loc main_arg3)) (m ((c : Thread nD τ).loc main_arg16)) (m ((c : Thread nD τ).loc main_arg17)) := by
  have hW : W12 m ρ c (Proc.devRef .tc main_v72) = (dat5 (F := Ideal) (Hand.V11 m ρ) c).arrAt 3 cfg5.N := W12_arr m ρ c 3
  rw [hW, final5, op5_x, op5_w, op5_b, row_hist]
  funext i
  obtain ⟨p, j, rfl⟩ : ∃ (p : Fin 1) (j : Fin 8192), i = ix2 p j := ⟨i 0, i 1, eq_ix2 i⟩
  obtain rfl : p = 0 := Subsingleton.elim _ _
  rw [G5_apply]
  refine Eq.trans ?_ (Cert.ReferenceIdeal.Val.ref5_apply (Cert.ReferenceIdeal.ReadP.val_main_v75 (F := Ideal) (m ((c : Thread nD τ).loc main_arg3))) (m ((c : Thread nD τ).loc main_arg16)) (m ((c : Thread nD τ).loc main_arg17)) j).symm
  rw [row_of_vec_8192]
  rfl

theorem chain92 (c : Dev nD) :
    W13 m ρ c (Proc.devRef .tc main_v92) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [res92, reg4_eq, reg5_eq, row_hist, ← ref_v105]

theorem chain93 (c : Dev nD) :
    W13 m ρ c (Proc.devRef .tc main_v93) = Cert.ReferenceIdeal.ReadP.val_main_v106 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [res93, reg3a_eq, reg3b_eq, row_h0, ← ref_v70, ← ref_v106]

end Cert.KernelIdeal.Val

end
-- ==== Proof.Val.RefStaged.lean ====
import proofs.«416939_j18966575579384_3_alg».proof.Proof.RefRead
import Idealize.ShloMosaic.Lib.StableHlo.Run
import Idealize.ShloMosaic.Lib.Pipeline.Frame

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]
variable (V0 : Valuation τ sig (Elt F))

local macro "ref_writes_mem" : tactic =>
  `(tactic| (simp only [nullary_writes, unary_writes, binary_writes, ternary_writes, quaternary_writes, reshape_writes,
      Finset.singleton_subset_iff, List.mem_toFinset]; exact List.mem_map_of_mem (by decide)))

abbrev refCh0 : List (HloOp τ sig (Elt F)) :=
  [ nullary main_c (constantI S_ 32 0#32),
    unary main_c main_v0 (broadcastInDim S64 ![] bcast_S_S64 : (⟨S_, .i32⟩ : BufTy).Contents (Elt F) → (⟨S64, .i32⟩ : BufTy).Contents (Elt F)),
    binary main_arg0 main_v0 main_v1 (cmpi .slt : (⟨S64, .i32⟩ : BufTy).Contents (Elt F) → (⟨S64, .i32⟩ : BufTy).Contents (Elt F) → (⟨S64, .i1⟩ : BufTy).Contents (Elt F)),
    nullary main_c_0 (constantI S_ 32 8192#32),
    unary main_c_0 main_v2 (broadcastInDim S64 ![] bcast_S_S64 : (⟨S_, .i32⟩ : BufTy).Contents (Elt F) → (⟨S64, .i32⟩ : BufTy).Contents (Elt F)),
    binary main_arg0 main_v2 main_v3 (addi : (⟨S64, .i32⟩ : BufTy).Contents (Elt F) → (⟨S64, .i32⟩ : BufTy).Contents (Elt F) → (⟨S64, .i32⟩ : BufTy).Contents (Elt F)),
    ternary main_v1 main_v3 main_arg0 main_v4 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v4 main_v5 (broadcastInDim S64x1 ![0] bcast_S64_S64x1_0 : (⟨S64, .i32⟩ : BufTy).Contents (Elt F) → (⟨S64x1, .i32⟩ : BufTy).Contents (Elt F)) ]

abbrev refCh1 : List (HloOp τ sig (Elt F)) :=
  [ binary main_arg5 main_v5 main_v6 ((fun x i => Host.gather gather_S8192x2048_S64x1_S64x2048_1_0_n_n_0_1_12048 x i) : (⟨S8192x2048, .f32⟩ : BufTy).Contents (Elt F) → (⟨S64x1, .i32⟩ : BufTy).Contents (Elt F) → (⟨S64x2048, .f32⟩ : BufTy).Contents (Elt F)),
    nullary main_cst (constant S_ .f32 0x00000000#32),
    binary main_v6 main_cst main_v7 ((fun x v => Host.reduceAdd x v reducesTo_S64x2048_S2048_d0 h_S_) : (⟨S64x2048, .f32⟩ : BufTy).Contents (Elt F) → (⟨S_, .f32⟩ : BufTy).Contents (Elt F) → (⟨S2048, .f32⟩ : BufTy).Contents (Elt F)),
    unary main_v7 main_v8 (broadcastInDim S1x2048 ![1] bcast_S2048_S1x2048_1 : (⟨S2048, .f32⟩ : BufTy).Contents (Elt F) → (⟨S1x2048, .f32⟩ : BufTy).Contents (Elt F)),
    nullary main_cst_1 (constant S_ .f32 0x42800000#32),
    unary main_cst_1 main_v9 (broadcastInDim S1x2048 ![] bcast_S_S1x2048 : (⟨S_, .f32⟩ : BufTy).Contents (Elt F) → (⟨S1x2048, .f32⟩ : BufTy).Contents (Elt F)),
    binary main_v8 main_v9 main_v10 (Host.divf : (⟨S1x2048, .f32⟩ : BufTy).Contents (Elt F) → (⟨S1x2048, .f32⟩ : BufTy).Contents (Elt F) → (⟨S1x2048, .f32⟩ : BufTy).Contents (Elt F)),
    reshape main_arg1 main_v11 rfl shapeCasts_S1x1x2048_S1x2048 ]

abbrev refCh2 : List (HloOp τ sig (Elt F)) :=
  [ binary main_v10 main_v11 main_v12 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg6 main_v13 ((transpose S4096x4096 [1, 0] · transposes_S4096x4096_S4096x4096_1_0) : (⟨S4096x4096, .f32⟩ : BufTy).Contents (Elt F) → (⟨S4096x4096, .f32⟩ : BufTy).Contents (Elt F)),
    binary main_v12 main_v13 main_v14 ((fun l r => Host.dotGeneral dot_S1x4096_S4096x4096_S1x4096_1_0_0_1_n_n none l r) : (⟨S1x4096, .f32⟩ : BufTy).Contents (Elt F) → (⟨S4096x4096, .f32⟩ : BufTy).Contents (Elt F) → (⟨S1x4096, .f32⟩ : BufTy).Contents (Elt F)),
    unary main_arg7 main_v15 (broadcastInDim S1x4096 ![1] bcast_S4096_S1x4096_1 : (⟨S4096, .f32⟩ : BufTy).Contents (Elt F) → (⟨S1x4096, .f32⟩ : BufTy).Contents (Elt F)),
    binary main_v14 main_v15 main_v16 (addf : (⟨S1x4096, .f32⟩ : BufTy).Contents (Elt F) → (⟨S1x4096, .f32⟩ : BufTy).Contents (Elt F) → (⟨S1x4096, .f32⟩ : BufTy).Contents (Elt F)),
    nullary main_cst_2 (constant S_ .f32 0xFF800000#32),
    binary main_v16 main_cst_2 main_v17 ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)),
    nullary main_cst_3 (constant S_ .f32 0xFF800000#32) ]

abbrev refCh3 : List (HloOp τ sig (Elt F)) :=
  [ unary main_cst_3 main_v18 (broadcastInDim S1 ![] bcast_S_S1 : (⟨S_, .f32⟩ : BufTy).Contents (Elt F) → (⟨S1, .f32⟩ : BufTy).Contents (Elt F)),
    binary main_v18 main_v17 main_v19 (maximumf : (⟨S1, .f32⟩ : BufTy).Contents (Elt F) → (⟨S1, .f32⟩ : BufTy).Contents (Elt F) → (⟨S1, .f32⟩ : BufTy).Contents (Elt F)),
    unary main_v19 main_v20 (broadcastInDim S1x1 ![0] bcast_S1_S1x1_0 : (⟨S1, .f32⟩ : BufTy).Contents (Elt F) → (⟨S1x1, .f32⟩ : BufTy).Contents (Elt F)),
    unary main_v20 main_v21 (broadcastInDim S1x4096 ![0, 1] bcast_S1x1_S1x4096_0_1 : (⟨S1x1, .f32⟩ : BufTy).Contents (Elt F) → (⟨S1x4096, .f32⟩ : BufTy).Contents (Elt F)),
    binary main_v16 main_v21 main_v22 (subf : (⟨S1x4096, .f32⟩ : BufTy).Contents (Elt F) → (⟨S1x4096, .f32⟩ : BufTy).Contents (Elt F) → (⟨S1x4096, .f32⟩ : BufTy).Contents (Elt F)),
    unary main_v22 main_v23 (Host.exp : (⟨S1x4096, .f32⟩ : BufTy).Contents (Elt F) → (⟨S1x4096, .f32⟩ : BufTy).Contents (Elt F)),
    nullary main_cst_4 (constant S_ .f32 0x00000000#32),
    binary main_v23 main_cst_4 main_v24 ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)) ]

abbrev refCh4 : List (HloOp τ sig (Elt F)) :=
  [ unary main_v24 main_v25 (broadcastInDim S1x1 ![0] bcast_S1_S1x1_0 : (⟨S1, .f32⟩ : BufTy).Contents (Elt F) → (⟨S1x1, .f32⟩ : BufTy).Contents (Elt F)),
    unary main_v25 main_v26 (broadcastInDim S1x4096 ![0, 1] bcast_S1x1_S1x4096_0_1 : (⟨S1x1, .f32⟩ : BufTy).Contents (Elt F) → (⟨S1x4096, .f32⟩ : BufTy).Contents (Elt F)),
    binary main_v23 main_v26 main_v27 (Host.divf : (⟨S1x4096, .f32⟩ : BufTy).Contents (Elt F) → (⟨S1x4096, .f32⟩ : BufTy).Contents (Elt F) → (⟨S1x4096, .f32⟩ : BufTy).Contents (Elt F)),
    binary main_v27 main_arg2 main_v28 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)) ]

abbrev refCh5 : List (HloOp τ sig (Elt F)) :=
  [ binary main_v10 main_v28 main_v29 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg8 main_v30 ((transpose S4096x2048 [1, 0] · transposes_S2048x4096_S4096x2048_1_0) : (⟨S2048x4096, .f32⟩ : BufTy).Contents (Elt F) → (⟨S4096x2048, .f32⟩ : BufTy).Contents (Elt F)),
    binary main_v29 main_v30 main_v31 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg9 main_v32 (broadcastInDim S1x2048 ![1] bcast_S2048_S1x2048_1 : (⟨S2048, .f32⟩ : BufTy).Contents (Elt F) → (⟨S1x2048, .f32⟩ : BufTy).Contents (Elt F)),
    binary main_v31 main_v32 main_v33 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v33) (TRef.of (T := ⟨S1x2048, .f32⟩) main_call0_v0) (TRef.of (T := ⟨S1x2048, .f32⟩) main_v34) maximumf ]

abbrev refCh6 : List (HloOp τ sig (Elt F)) :=
  [ unary main_arg10 main_v35 ((transpose S2048x6144 [1, 0] · transposes_S6144x2048_S2048x6144_1_0) : (⟨S6144x2048, .f32⟩ : BufTy).Contents (Elt F) → (⟨S2048x6144, .f32⟩ : BufTy).Contents (Elt F)),
    binary main_v34 main_v35 main_v36 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg12 main_v37 (broadcastInDim S1x6144 ![1] bcast_S6144_S1x6144_1 : (⟨S6144, .f32⟩ : BufTy).Contents (Elt F) → (⟨S1x6144, .f32⟩ : BufTy).Contents (Elt F)),
    binary main_v36 main_v37 main_v38 (addf : (⟨S1x6144, .f32⟩ : BufTy).Contents (Elt F) → (⟨S1x6144, .f32⟩ : BufTy).Contents (Elt F) → (⟨S1x6144, .f32⟩ : BufTy).Contents (Elt F)),
    unary main_arg11 main_v39 ((transpose S2048x6144 [1, 0] · transposes_S6144x2048_S2048x6144_1_0) : (⟨S6144x2048, .f32⟩ : BufTy).Contents (Elt F) → (⟨S2048x6144, .f32⟩ : BufTy).Contents (Elt F)),
    binary main_v11 main_v39 main_v40 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg13 main_v41 (broadcastInDim S1x6144 ![1] bcast_S6144_S1x6144_1 : (⟨S6144, .f32⟩ : BufTy).Contents (Elt F) → (⟨S1x6144, .f32⟩ : BufTy).Contents (Elt F)),
    binary main_v40 main_v41 main_v42 (addf : (⟨S1x6144, .f32⟩ : BufTy).Contents (Elt F) → (⟨S1x6144, .f32⟩ : BufTy).Contents (Elt F) → (⟨S1x6144, .f32⟩ : BufTy).Contents (Elt F)) ]

abbrev refCh7 : List (HloOp τ sig (Elt F)) :=
  [ unary main_v38 main_v43 ((extractStridedSlice S1x2048 ![0, 0] · slices_S1x6144_S1x2048_0_0) : (⟨S1x6144, .f32⟩ : BufTy).Contents (Elt F) → (⟨S1x2048, .f32⟩ : BufTy).Contents (Elt F)),
    unary main_v38 main_v44 ((extractStridedSlice S1x2048 ![0, 2048] · slices_S1x6144_S1x2048_0_2048) : (⟨S1x6144, .f32⟩ : BufTy).Contents (Elt F) → (⟨S1x2048, .f32⟩ : BufTy).Contents (Elt F)),
    unary main_v38 main_v45 ((extractStridedSlice S1x2048 ![0, 4096] · slices_S1x6144_S1x2048_0_4096) : (⟨S1x6144, .f32⟩ : BufTy).Contents (Elt F) → (⟨S1x2048, .f32⟩ : BufTy).Contents (Elt F)),
    unary main_v42 main_v46 ((extractStridedSlice S1x2048 ![0, 0] · slices_S1x6144_S1x2048_0_0) : (⟨S1x6144, .f32⟩ : BufTy).Contents (Elt F) → (⟨S1x2048, .f32⟩ : BufTy).Contents (Elt F)),
    unary main_v42 main_v47 ((extractStridedSlice S1x2048 ![0, 2048] · slices_S1x6144_S1x2048_0_2048) : (⟨S1x6144, .f32⟩ : BufTy).Contents (Elt F) → (⟨S1x2048, .f32⟩ : BufTy).Contents (Elt F)),
    unary main_v42 main_v48 ((extractStridedSlice S1x2048 ![0, 4096] · slices_S1x6144_S1x2048_0_4096) : (⟨S1x6144, .f32⟩ : BufTy).Contents (Elt F) → (⟨S1x2048, .f32⟩ : BufTy).Contents (Elt F)),
    binary main_v43 main_v46 main_v49 (addf : (⟨S1x2048, .f32⟩ : BufTy).Contents (Elt F) → (⟨S1x2048, .f32⟩ : BufTy).Contents (Elt F) → (⟨S1x2048, .f32⟩ : BufTy).Contents (Elt F)),
    unary main_v49 main_v50 (Host.negf : (⟨S1x2048, .f32⟩ : BufTy).Contents (Elt F) → (⟨S1x2048, .f32⟩ : BufTy).Contents (Elt F)) ]

abbrev refCh8 : List (HloOp τ sig (Elt F)) :=
  [ unary main_v50 main_v51 (Host.exp : (⟨S1x2048, .f32⟩ : BufTy).Contents (Elt F) → (⟨S1x2048, .f32⟩ : BufTy).Contents (Elt F)),
    nullary main_cst_5 (constant S_ .f32 0x3F800000#32),
    unary main_cst_5 main_v52 (broadcastInDim S1x2048 ![] bcast_S_S1x2048 : (⟨S_, .f32⟩ : BufTy).Contents (Elt F) → (⟨S1x2048, .f32⟩ : BufTy).Contents (Elt F)),
    binary main_v52 main_v51 main_v53 (addf : (⟨S1x2048, .f32⟩ : BufTy).Contents (Elt F) → (⟨S1x2048, .f32⟩ : BufTy).Contents (Elt F) → (⟨S1x2048, .f32⟩ : BufTy).Contents (Elt F)),
    nullary main_cst_6 (constant S_ .f32 0x3F800000#32),
    unary main_cst_6 main_v54 (broadcastInDim S1x2048 ![] bcast_S_S1x2048 : (⟨S_, .f32⟩ : BufTy).Contents (Elt F) → (⟨S1x2048, .f32⟩ : BufTy).Contents (Elt F)),
    binary main_v54 main_v53 main_v55 (Host.divf : (⟨S1x2048, .f32⟩ : BufTy).Contents (Elt F) → (⟨S1x2048, .f32⟩ : BufTy).Contents (Elt F) → (⟨S1x2048, .f32⟩ : BufTy).Contents (Elt F)),
    binary main_v44 main_v47 main_v56 (addf : (⟨S1x2048, .f32⟩ : BufTy).Contents (Elt F) → (⟨S1x2048, .f32⟩ : BufTy).Contents (Elt F) → (⟨S1x2048, .f32⟩ : BufTy).Contents (Elt F)) ]

abbrev refCh9 : List (HloOp τ sig (Elt F)) :=
  [ unary main_v56 main_v57 (Host.negf : (⟨S1x2048, .f32⟩ : BufTy).Contents (Elt F) → (⟨S1x2048, .f32⟩ : BufTy).Contents (Elt F)),
    unary main_v57 main_v58 (Host.exp : (⟨S1x2048, .f32⟩ : BufTy).Contents (Elt F) → (⟨S1x2048, .f32⟩ : BufTy).Contents (Elt F)),
    nullary main_cst_7 (constant S_ .f32 0x3F800000#32),
    unary main_cst_7 main_v59 (broadcastInDim S1x2048 ![] bcast_S_S1x2048 : (⟨S_, .f32⟩ : BufTy).Contents (Elt F) → (⟨S1x2048, .f32⟩ : BufTy).Contents (Elt F)),
    binary main_v59 main_v58 main_v60 (addf : (⟨S1x2048, .f32⟩ : BufTy).Contents (Elt F) → (⟨S1x2048, .f32⟩ : BufTy).Contents (Elt F) → (⟨S1x2048, .f32⟩ : BufTy).Contents (Elt F)),
    nullary main_cst_8 (constant S_ .f32 0x3F800000#32),
    unary main_cst_8 main_v61 (broadcastInDim S1x2048 ![] bcast_S_S1x2048 : (⟨S_, .f32⟩ : BufTy).Contents (Elt F) → (⟨S1x2048, .f32⟩ : BufTy).Contents (Elt F)),
    binary main_v61 main_v60 main_v62 (Host.divf : (⟨S1x2048, .f32⟩ : BufTy).Contents (Elt F) → (⟨S1x2048, .f32⟩ : BufTy).Contents (Elt F) → (⟨S1x2048, .f32⟩ : BufTy).Contents (Elt F)) ]

abbrev refCh10 : List (HloOp τ sig (Elt F)) :=
  [ binary main_v55 main_v48 main_v63 (mulf : (⟨S1x2048, .f32⟩ : BufTy).Contents (Elt F) → (⟨S1x2048, .f32⟩ : BufTy).Contents (Elt F) → (⟨S1x2048, .f32⟩ : BufTy).Contents (Elt F)),
    binary main_v45 main_v63 main_v64 (addf : (⟨S1x2048, .f32⟩ : BufTy).Contents (Elt F) → (⟨S1x2048, .f32⟩ : BufTy).Contents (Elt F) → (⟨S1x2048, .f32⟩ : BufTy).Contents (Elt F)),
    unary main_v64 main_v65 (Host.tanh : (⟨S1x2048, .f32⟩ : BufTy).Contents (Elt F) → (⟨S1x2048, .f32⟩ : BufTy).Contents (Elt F)),
    nullary main_cst_9 (constant S_ .f32 0x3F800000#32),
    unary main_cst_9 main_v66 (broadcastInDim S1x2048 ![] bcast_S_S1x2048 : (⟨S_, .f32⟩ : BufTy).Contents (Elt F) → (⟨S1x2048, .f32⟩ : BufTy).Contents (Elt F)),
    binary main_v66 main_v62 main_v67 (subf : (⟨S1x2048, .f32⟩ : BufTy).Contents (Elt F) → (⟨S1x2048, .f32⟩ : BufTy).Contents (Elt F) → (⟨S1x2048, .f32⟩ : BufTy).Contents (Elt F)),
    binary main_v67 main_v65 main_v68 (mulf : (⟨S1x2048, .f32⟩ : BufTy).Contents (Elt F) → (⟨S1x2048, .f32⟩ : BufTy).Contents (Elt F) → (⟨S1x2048, .f32⟩ : BufTy).Contents (Elt F)),
    binary main_v62 main_v11 main_v69 (mulf : (⟨S1x2048, .f32⟩ : BufTy).Contents (Elt F) → (⟨S1x2048, .f32⟩ : BufTy).Contents (Elt F) → (⟨S1x2048, .f32⟩ : BufTy).Contents (Elt F)) ]

abbrev refCh11 : List (HloOp τ sig (Elt F)) :=
  [ binary main_v68 main_v69 main_v70 (addf : (⟨S1x2048, .f32⟩ : BufTy).Contents (Elt F) → (⟨S1x2048, .f32⟩ : BufTy).Contents (Elt F) → (⟨S1x2048, .f32⟩ : BufTy).Contents (Elt F)),
    unary main_arg14 main_v71 ((transpose S2048x8192 [1, 0] · transposes_S8192x2048_S2048x8192_1_0) : (⟨S8192x2048, .f32⟩ : BufTy).Contents (Elt F) → (⟨S2048x8192, .f32⟩ : BufTy).Contents (Elt F)),
    binary main_v70 main_v71 main_v72 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    unary main_arg15 main_v73 (broadcastInDim S1x8192 ![1] bcast_S8192_S1x8192_1 : (⟨S8192, .f32⟩ : BufTy).Contents (Elt F) → (⟨S1x8192, .f32⟩ : BufTy).Contents (Elt F)),
    binary main_v72 main_v73 main_v74 (addf : (⟨S1x8192, .f32⟩ : BufTy).Contents (Elt F) → (⟨S1x8192, .f32⟩ : BufTy).Contents (Elt F) → (⟨S1x8192, .f32⟩ : BufTy).Contents (Elt F)),
    unary main_arg3 main_v75 (broadcastInDim S1x8192 ![1] bcast_S8192_S1x8192_1 : (⟨S8192, .f32⟩ : BufTy).Contents (Elt F) → (⟨S1x8192, .f32⟩ : BufTy).Contents (Elt F)),
    unary main_arg16 main_v76 ((transpose S8192x8192 [1, 0] · transposes_S8192x8192_S8192x8192_1_0) : (⟨S8192x8192, .f32⟩ : BufTy).Contents (Elt F) → (⟨S8192x8192, .f32⟩ : BufTy).Contents (Elt F)),
    binary main_v75 main_v76 main_v77 ((fun l r => Host.dotGeneral dot_S1x8192_S8192x8192_S1x8192_1_0_0_1_n_n none l r) : (⟨S1x8192, .f32⟩ : BufTy).Contents (Elt F) → (⟨S8192x8192, .f32⟩ : BufTy).Contents (Elt F) → (⟨S1x8192, .f32⟩ : BufTy).Contents (Elt F)) ]

abbrev refCh12 : List (HloOp τ sig (Elt F)) :=
  [ unary main_arg17 main_v78 (broadcastInDim S1x8192 ![1] bcast_S8192_S1x8192_1 : (⟨S8192, .f32⟩ : BufTy).Contents (Elt F) → (⟨S1x8192, .f32⟩ : BufTy).Contents (Elt F)),
    binary main_v77 main_v78 main_v79 (addf : (⟨S1x8192, .f32⟩ : BufTy).Contents (Elt F) → (⟨S1x8192, .f32⟩ : BufTy).Contents (Elt F) → (⟨S1x8192, .f32⟩ : BufTy).Contents (Elt F)),
    unary main_v79 main_v80 (Host.negf : (⟨S1x8192, .f32⟩ : BufTy).Contents (Elt F) → (⟨S1x8192, .f32⟩ : BufTy).Contents (Elt F)),
    unary main_v80 main_v81 (Host.exp : (⟨S1x8192, .f32⟩ : BufTy).Contents (Elt F) → (⟨S1x8192, .f32⟩ : BufTy).Contents (Elt F)),
    nullary main_cst_10 (constant S_ .f32 0x3F800000#32),
    unary main_cst_10 main_v82 (broadcastInDim S1x8192 ![] bcast_S_S1x8192 : (⟨S_, .f32⟩ : BufTy).Contents (Elt F) → (⟨S1x8192, .f32⟩ : BufTy).Contents (Elt F)),
    binary main_v82 main_v81 main_v83 (addf : (⟨S1x8192, .f32⟩ : BufTy).Contents (Elt F) → (⟨S1x8192, .f32⟩ : BufTy).Contents (Elt F) → (⟨S1x8192, .f32⟩ : BufTy).Contents (Elt F)),
    nullary main_cst_11 (constant S_ .f32 0x3F800000#32) ]

abbrev refCh13 : List (HloOp τ sig (Elt F)) :=
  [ unary main_cst_11 main_v84 (broadcastInDim S1x8192 ![] bcast_S_S1x8192 : (⟨S_, .f32⟩ : BufTy).Contents (Elt F) → (⟨S1x8192, .f32⟩ : BufTy).Contents (Elt F)),
    binary main_v84 main_v83 main_v85 (Host.divf : (⟨S1x8192, .f32⟩ : BufTy).Contents (Elt F) → (⟨S1x8192, .f32⟩ : BufTy).Contents (Elt F) → (⟨S1x8192, .f32⟩ : BufTy).Contents (Elt F)),
    nullary main_cst_12 (constant S_ .f32 0x00000000#32),
    unary main_cst_12 main_v86 (broadcastInDim S1x8192 ![] bcast_S_S1x8192 : (⟨S_, .f32⟩ : BufTy).Contents (Elt F) → (⟨S1x8192, .f32⟩ : BufTy).Contents (Elt F)),
    binary main_v75 main_v86 main_v87 (cmpf .une : (⟨S1x8192, .f32⟩ : BufTy).Contents (Elt F) → (⟨S1x8192, .f32⟩ : BufTy).Contents (Elt F) → (⟨S1x8192, .i1⟩ : BufTy).Contents (Elt F)),
    unary main_v87 main_v88 (uitofp .f32 : (⟨S1x8192, .i1⟩ : BufTy).Contents (Elt F) → (⟨S1x8192, .f32⟩ : BufTy).Contents (Elt F)),
    binary main_v88 main_v85 main_v89 (mulf : (⟨S1x8192, .f32⟩ : BufTy).Contents (Elt F) → (⟨S1x8192, .f32⟩ : BufTy).Contents (Elt F) → (⟨S1x8192, .f32⟩ : BufTy).Contents (Elt F)),
    nullary main_cst_13 (constant S_ .f32 0x3F800000#32) ]

abbrev refCh14 : List (HloOp τ sig (Elt F)) :=
  [ unary main_cst_13 main_v90 (broadcastInDim S1x8192 ![] bcast_S_S1x8192 : (⟨S_, .f32⟩ : BufTy).Contents (Elt F) → (⟨S1x8192, .f32⟩ : BufTy).Contents (Elt F)),
    binary main_v90 main_v89 main_v91 (subf : (⟨S1x8192, .f32⟩ : BufTy).Contents (Elt F) → (⟨S1x8192, .f32⟩ : BufTy).Contents (Elt F) → (⟨S1x8192, .f32⟩ : BufTy).Contents (Elt F)),
    binary main_v74 main_v91 main_v92 (mulf : (⟨S1x8192, .f32⟩ : BufTy).Contents (Elt F) → (⟨S1x8192, .f32⟩ : BufTy).Contents (Elt F) → (⟨S1x8192, .f32⟩ : BufTy).Contents (Elt F)),
    binary main_v75 main_v85 main_v93 (mulf : (⟨S1x8192, .f32⟩ : BufTy).Contents (Elt F) → (⟨S1x8192, .f32⟩ : BufTy).Contents (Elt F) → (⟨S1x8192, .f32⟩ : BufTy).Contents (Elt F)),
    binary main_v92 main_v93 main_v94 (addf : (⟨S1x8192, .f32⟩ : BufTy).Contents (Elt F) → (⟨S1x8192, .f32⟩ : BufTy).Contents (Elt F) → (⟨S1x8192, .f32⟩ : BufTy).Contents (Elt F)),
    nullary main_cst_14 (constant S_ .f32 0xFF800000#32),
    binary main_v94 main_cst_14 main_v95 ((fun x v => Host.reduce FloatOps.maximumf x v reducesTo_S1x8192_S1_d1 h_S_) : (⟨S1x8192, .f32⟩ : BufTy).Contents (Elt F) → (⟨S_, .f32⟩ : BufTy).Contents (Elt F) → (⟨S1, .f32⟩ : BufTy).Contents (Elt F)),
    nullary main_cst_15 (constant S_ .f32 0xFF800000#32) ]

abbrev refCh15 : List (HloOp τ sig (Elt F)) :=
  [ unary main_cst_15 main_v96 (broadcastInDim S1 ![] bcast_S_S1 : (⟨S_, .f32⟩ : BufTy).Contents (Elt F) → (⟨S1, .f32⟩ : BufTy).Contents (Elt F)),
    binary main_v96 main_v95 main_v97 (maximumf : (⟨S1, .f32⟩ : BufTy).Contents (Elt F) → (⟨S1, .f32⟩ : BufTy).Contents (Elt F) → (⟨S1, .f32⟩ : BufTy).Contents (Elt F)),
    unary main_v97 main_v98 (broadcastInDim S1x1 ![0] bcast_S1_S1x1_0 : (⟨S1, .f32⟩ : BufTy).Contents (Elt F) → (⟨S1x1, .f32⟩ : BufTy).Contents (Elt F)),
    unary main_v98 main_v99 (broadcastInDim S1x8192 ![0, 1] bcast_S1x1_S1x8192_0_1 : (⟨S1x1, .f32⟩ : BufTy).Contents (Elt F) → (⟨S1x8192, .f32⟩ : BufTy).Contents (Elt F)),
    binary main_v94 main_v99 main_v100 (subf : (⟨S1x8192, .f32⟩ : BufTy).Contents (Elt F) → (⟨S1x8192, .f32⟩ : BufTy).Contents (Elt F) → (⟨S1x8192, .f32⟩ : BufTy).Contents (Elt F)),
    unary main_v100 main_v101 (Host.exp : (⟨S1x8192, .f32⟩ : BufTy).Contents (Elt F) → (⟨S1x8192, .f32⟩ : BufTy).Contents (Elt F)),
    nullary main_cst_16 (constant S_ .f32 0x00000000#32),
    binary main_v101 main_cst_16 main_v102 ((fun x v => Host.reduceAdd x v reducesTo_S1x8192_S1_d1 h_S_) : (⟨S1x8192, .f32⟩ : BufTy).Contents (Elt F) → (⟨S_, .f32⟩ : BufTy).Contents (Elt F) → (⟨S1, .f32⟩ : BufTy).Contents (Elt F)) ]

abbrev refCh16 : List (HloOp τ sig (Elt F)) :=
  [ unary main_v102 main_v103 (broadcastInDim S1x1 ![0] bcast_S1_S1x1_0 : (⟨S1, .f32⟩ : BufTy).Contents (Elt F) → (⟨S1x1, .f32⟩ : BufTy).Contents (Elt F)),
    unary main_v103 main_v104 (broadcastInDim S1x8192 ![0, 1] bcast_S1x1_S1x8192_0_1 : (⟨S1x1, .f32⟩ : BufTy).Contents (Elt F) → (⟨S1x8192, .f32⟩ : BufTy).Contents (Elt F)),
    binary main_v101 main_v104 main_v105 (Host.divf : (⟨S1x8192, .f32⟩ : BufTy).Contents (Elt F) → (⟨S1x8192, .f32⟩ : BufTy).Contents (Elt F) → (⟨S1x8192, .f32⟩ : BufTy).Contents (Elt F)),
    unary main_v70 main_v106 (broadcastInDim S1x1x2048 ![1, 2] bcast_S1x2048_S1x1x2048_1_2 : (⟨S1x2048, .f32⟩ : BufTy).Contents (Elt F) → (⟨S1x1x2048, .f32⟩ : BufTy).Contents (Elt F)) ]

-- The reference's 128 operations: 17 consecutive stretches, appended.
abbrev refOps : List (HloOp τ sig (Elt F)) :=
  refCh0 ++ (refCh1 ++ (refCh2 ++ (refCh3 ++ (refCh4 ++ (refCh5 ++ (refCh6 ++ (refCh7 ++ (refCh8 ++ (refCh9 ++ (refCh10 ++ (refCh11 ++ (refCh12 ++ (refCh13 ++ (refCh14 ++ (refCh15 ++ (refCh16))))))))))))))))

set_option maxRecDepth 8192 in
set_option maxHeartbeats 4000000 in
theorem ref_main_eq (c : Dev nD) : main (F := F) c = seq refOps := rfl

theorem refCh0_sub : (refCh0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem refCh1_sub : (refCh1 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., reshape_bufs_sub ..⟩
theorem refCh2_sub : (refCh2 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., nullary_bufs_sub ..⟩
theorem refCh3_sub : (refCh3 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub ..⟩
theorem refCh4_sub : (refCh4 : List (HloOp τ sig (Elt F))).Forall fun op => op.bufs ⊆ tcRefs τ sig :=
  ⟨unary_bufs_sub .., unary_bufs_sub .., binary_bufs_sub .., binary_bufs_sub ..⟩
theorem refCh5_sub : (refCh5 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub ..⟩
theorem refCh6_sub : (refCh6 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub ..⟩
theorem refCh7_sub : (refCh7 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub ..⟩
theorem refCh8_sub : (refCh8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub ..⟩
theorem refCh9_sub : (refCh9 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem refCh10_sub : (refCh10 : List (HloOp τ sig (Elt F))).Forall fun op => op.bufs ⊆ tcRefs τ sig :=
  ⟨binary_bufs_sub .., binary_bufs_sub .., unary_bufs_sub .., nullary_bufs_sub .., unary_bufs_sub .., binary_bufs_sub .., binary_bufs_sub .., binary_bufs_sub ..⟩
theorem refCh11_sub : (refCh11 : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., binary_bufs_sub ..⟩
theorem refCh12_sub : (refCh12 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub ..⟩
theorem refCh13_sub : (refCh13 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., nullary_bufs_sub ..⟩
theorem refCh14_sub : (refCh14 : List (HloOp τ sig (Elt F))).Forall fun op => op.bufs ⊆ tcRefs τ sig :=
  ⟨unary_bufs_sub .., binary_bufs_sub .., binary_bufs_sub .., binary_bufs_sub .., binary_bufs_sub .., nullary_bufs_sub .., binary_bufs_sub .., nullary_bufs_sub ..⟩
theorem refCh15_sub : (refCh15 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub ..⟩
theorem refCh16_sub : (refCh16 : List (HloOp τ sig (Elt F))).Forall fun op => op.bufs ⊆ tcRefs τ sig :=
  ⟨unary_bufs_sub .., unary_bufs_sub .., binary_bufs_sub .., unary_bufs_sub ..⟩

theorem refOps_sub : (refOps : List (HloOp τ sig (Elt F))).Forall fun op => op.bufs ⊆ tcRefs τ sig :=
  List.forall_append.2 ⟨refCh0_sub, List.forall_append.2 ⟨refCh1_sub, List.forall_append.2 ⟨refCh2_sub, List.forall_append.2 ⟨refCh3_sub, List.forall_append.2 ⟨refCh4_sub, List.forall_append.2 ⟨refCh5_sub, List.forall_append.2 ⟨refCh6_sub, List.forall_append.2 ⟨refCh7_sub, List.forall_append.2 ⟨refCh8_sub, List.forall_append.2 ⟨refCh9_sub, List.forall_append.2 ⟨refCh10_sub, List.forall_append.2 ⟨refCh11_sub, List.forall_append.2 ⟨refCh12_sub, List.forall_append.2 ⟨refCh13_sub, List.forall_append.2 ⟨refCh14_sub, List.forall_append.2 ⟨refCh15_sub, refCh16_sub⟩⟩⟩⟩⟩⟩⟩⟩⟩⟩⟩⟩⟩⟩⟩⟩

theorem ref_scopedRefs : (Finset.univ.filter fun b : Ref sig .tc => b.isScoped) = ∅ := by decide
theorem ref_scopedSems : (Finset.univ.filter fun sm : SemLoc sig => sm.isScoped .tc) = ∅ := by decide

def refSt0 : Valuation τ sig (Elt F) := V0
abbrev refArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]
theorem refSt0_arg (r : Ref sig .tc) (h : r ∈ refArgs) :
    refSt0 V0 (Proc.devRef .tc r) = V0 (Proc.devRef .tc r) := rfl

def refSt1 : Valuation τ sig (Elt F) := after refCh0 (refSt0 V0)

abbrev refCh0_W : List (Ref sig .tc) := [main_c, main_v0, main_v1, main_c_0, main_v2, main_v3, main_v4, main_v5]
theorem refCh0_writes : (refCh0 : List (HloOp τ sig (Elt F))).Forall fun op => op.writes ⊆ (refCh0_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

-- A buffer that a stretch does not write keeps its contents through it.
theorem refSt1_keep (r : Ref sig .tc) (h : r ∉ refCh0_W) :
    refSt1 V0 (Proc.devRef .tc r) = refSt0 V0 (Proc.devRef .tc r) :=
  after_of_writes_sub refCh0 _ refCh0_writes h
-- No operation writes an argument, so it holds its launch contents after every stretch.
theorem refSt1_arg (r : Ref sig .tc) (h : r ∈ refArgs) :
    refSt1 V0 (Proc.devRef .tc r) = V0 (Proc.devRef .tc r) :=
  (refSt1_keep V0 r ((by decide : ∀ r ∈ refArgs, r ∉ refCh0_W) r h)).trans (refSt0_arg V0 r h)
-- A buffer a later stretch reads holds its stage function of the arguments: compute the stretch over the values known before it.
set_option maxRecDepth 8192 in
theorem refSt1_main_v5 : refSt1 V0 (no_index (Proc.devRef .tc main_v5)) = ReadP.val_main_v5 (F := F) (V0 (Proc.devRef .tc main_arg0)) := by
  unfold refSt1
  simp only [refCh0]
  after_results_simp
  rw [refSt0_arg V0 main_arg0 (by decide)]
  all_goals rfl

def refSt2 : Valuation τ sig (Elt F) := after refCh1 (refSt1 V0)

abbrev refCh1_W : List (Ref sig .tc) := [main_v6, main_cst, main_v7, main_v8, main_cst_1, main_v9, main_v10, main_v11]
theorem refCh1_writes : (refCh1 : List (HloOp τ sig (Elt F))).Forall fun op => op.writes ⊆ (refCh1_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt2_keep (r : Ref sig .tc) (h : r ∉ refCh1_W) :
    refSt2 V0 (Proc.devRef .tc r) = refSt1 V0 (Proc.devRef .tc r) :=
  after_of_writes_sub refCh1 _ refCh1_writes h
theorem refSt2_arg (r : Ref sig .tc) (h : r ∈ refArgs) :
    refSt2 V0 (Proc.devRef .tc r) = V0 (Proc.devRef .tc r) :=
  (refSt2_keep V0 r ((by decide : ∀ r ∈ refArgs, r ∉ refCh1_W) r h)).trans (refSt1_arg V0 r h)
set_option maxRecDepth 8192 in
theorem refSt2_main_v10 : refSt2 V0 (no_index (Proc.devRef .tc main_v10)) = ReadP.val_main_v10 (F := F) (V0 (Proc.devRef .tc main_arg0)) (V0 (Proc.devRef .tc main_arg5)) := by
  unfold refSt2
  simp only [refCh1]
  after_results_simp
  rw [refSt1_arg V0 main_arg5 (by decide), refSt1_main_v5]
  all_goals rfl
set_option maxRecDepth 8192 in
theorem refSt2_main_v11 : refSt2 V0 (no_index (Proc.devRef .tc main_v11)) = ReadP.val_main_v11 (F := F) (V0 (Proc.devRef .tc main_arg1)) := by
  unfold refSt2
  simp only [refCh1]
  after_results_simp
  rw [refSt1_arg V0 main_arg1 (by decide)]
  all_goals rfl

def refSt3 : Valuation τ sig (Elt F) := after refCh2 (refSt2 V0)

abbrev refCh2_W : List (Ref sig .tc) := [main_v12, main_v13, main_v14, main_v15, main_v16, main_cst_2, main_v17, main_cst_3]
theorem refCh2_writes : (refCh2 : List (HloOp τ sig (Elt F))).Forall fun op => op.writes ⊆ (refCh2_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt3_keep (r : Ref sig .tc) (h : r ∉ refCh2_W) :
    refSt3 V0 (Proc.devRef .tc r) = refSt2 V0 (Proc.devRef .tc r) :=
  after_of_writes_sub refCh2 _ refCh2_writes h
theorem refSt3_arg (r : Ref sig .tc) (h : r ∈ refArgs) :
    refSt3 V0 (Proc.devRef .tc r) = V0 (Proc.devRef .tc r) :=
  (refSt3_keep V0 r ((by decide : ∀ r ∈ refArgs, r ∉ refCh2_W) r h)).trans (refSt2_arg V0 r h)
set_option maxRecDepth 8192 in
theorem refSt3_main_v16 : refSt3 V0 (no_index (Proc.devRef .tc main_v16)) = ReadP.val_main_v16 (F := F) (V0 (Proc.devRef .tc main_arg0)) (V0 (Proc.devRef .tc main_arg1)) (V0 (Proc.devRef .tc main_arg5)) (V0 (Proc.devRef .tc main_arg6)) (V0 (Proc.devRef .tc main_arg7)) := by
  unfold refSt3
  simp only [refCh2]
  after_results_simp
  rw [refSt2_main_v10, refSt2_main_v11, refSt2_arg V0 main_arg6 (by decide), refSt2_arg V0 main_arg7 (by decide)]
  all_goals rfl
set_option maxRecDepth 8192 in
theorem refSt3_main_v17 : refSt3 V0 (no_index (Proc.devRef .tc main_v17)) = ReadP.val_main_v17 (F := F) (V0 (Proc.devRef .tc main_arg0)) (V0 (Proc.devRef .tc main_arg1)) (V0 (Proc.devRef .tc main_arg5)) (V0 (Proc.devRef .tc main_arg6)) (V0 (Proc.devRef .tc main_arg7)) := by
  unfold refSt3
  simp only [refCh2]
  after_results_simp
  rw [refSt2_main_v10, refSt2_main_v11, refSt2_arg V0 main_arg6 (by decide), refSt2_arg V0 main_arg7 (by decide)]
  all_goals rfl
set_option maxRecDepth 8192 in
theorem refSt3_main_cst_3 : refSt3 V0 (no_index (Proc.devRef .tc main_cst_3)) = ReadP.val_main_cst_3 (F := F) := by
  unfold refSt3
  simp only [refCh2]
  after_results_simp
  all_goals rfl

def refSt4 : Valuation τ sig (Elt F) := after refCh3 (refSt3 V0)

abbrev refCh3_W : List (Ref sig .tc) := [main_v18, main_v19, main_v20, main_v21, main_v22, main_v23, main_cst_4, main_v24]
theorem refCh3_writes : (refCh3 : List (HloOp τ sig (Elt F))).Forall fun op => op.writes ⊆ (refCh3_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt4_keep (r : Ref sig .tc) (h : r ∉ refCh3_W) :
    refSt4 V0 (Proc.devRef .tc r) = refSt3 V0 (Proc.devRef .tc r) :=
  after_of_writes_sub refCh3 _ refCh3_writes h
theorem refSt4_arg (r : Ref sig .tc) (h : r ∈ refArgs) :
    refSt4 V0 (Proc.devRef .tc r) = V0 (Proc.devRef .tc r) :=
  (refSt4_keep V0 r ((by decide : ∀ r ∈ refArgs, r ∉ refCh3_W) r h)).trans (refSt3_arg V0 r h)
set_option maxRecDepth 8192 in
theorem refSt4_main_v23 : refSt4 V0 (no_index (Proc.devRef .tc main_v23)) = ReadP.val_main_v23 (F := F) (V0 (Proc.devRef .tc main_arg0)) (V0 (Proc.devRef .tc main_arg1)) (V0 (Proc.devRef .tc main_arg5)) (V0 (Proc.devRef .tc main_arg6)) (V0 (Proc.devRef .tc main_arg7)) := by
  unfold refSt4
  simp only [refCh3]
  after_results_simp
  rw [refSt3_main_v16, refSt3_main_cst_3, refSt3_main_v17]
  all_goals rfl
set_option maxRecDepth 8192 in
theorem refSt4_main_v24 : refSt4 V0 (no_index (Proc.devRef .tc main_v24)) = ReadP.val_main_v24 (F := F) (V0 (Proc.devRef .tc main_arg0)) (V0 (Proc.devRef .tc main_arg1)) (V0 (Proc.devRef .tc main_arg5)) (V0 (Proc.devRef .tc main_arg6)) (V0 (Proc.devRef .tc main_arg7)) := by
  unfold refSt4
  simp only [refCh3]
  after_results_simp
  rw [refSt3_main_v16, refSt3_main_cst_3, refSt3_main_v17]
  all_goals rfl

def refSt5 : Valuation τ sig (Elt F) := after refCh4 (refSt4 V0)

abbrev refCh4_W : List (Ref sig .tc) := [main_v25, main_v26, main_v27, main_v28]
theorem refCh4_writes : (refCh4 : List (HloOp τ sig (Elt F))).Forall fun op => op.writes ⊆ (refCh4_W.map (Proc.devRef (τ := τ) .tc)).toFinset := by
  simp only [List.Forall]; exact ⟨by ref_writes_mem, by ref_writes_mem, by ref_writes_mem, by ref_writes_mem⟩

theorem refSt5_keep (r : Ref sig .tc) (h : r ∉ refCh4_W) :
    refSt5 V0 (Proc.devRef .tc r) = refSt4 V0 (Proc.devRef .tc r) :=
  after_of_writes_sub refCh4 _ refCh4_writes h
theorem refSt5_arg (r : Ref sig .tc) (h : r ∈ refArgs) :
    refSt5 V0 (Proc.devRef .tc r) = V0 (Proc.devRef .tc r) :=
  (refSt5_keep V0 r ((by decide : ∀ r ∈ refArgs, r ∉ refCh4_W) r h)).trans (refSt4_arg V0 r h)
set_option maxRecDepth 8192 in
theorem refSt5_main_v27 : refSt5 V0 (no_index (Proc.devRef .tc main_v27)) = ReadP.val_main_v27 (F := F) (V0 (Proc.devRef .tc main_arg0)) (V0 (Proc.devRef .tc main_arg1)) (V0 (Proc.devRef .tc main_arg5)) (V0 (Proc.devRef .tc main_arg6)) (V0 (Proc.devRef .tc main_arg7)) := by
  unfold refSt5
  simp only [refCh4]
  after_results_simp
  rw [refSt4_main_v23, refSt4_main_v24]
  all_goals rfl
set_option maxRecDepth 8192 in
theorem refSt5_main_v28 : refSt5 V0 (no_index (Proc.devRef .tc main_v28)) = ReadP.val_main_v28 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) := by
  unfold refSt5
  simp only [refCh4]
  after_results_simp
  rw [refSt4_main_v23, refSt4_main_v24, refSt4_arg V0 main_arg2 (by decide)]
  all_goals rfl

def refSt6 : Valuation τ sig (Elt F) := after refCh5 (refSt5 V0)

abbrev refCh5_W : List (Ref sig .tc) := [main_v29, main_v30, main_v31, main_v32, main_v33, main_call0_cst, main_call0_v0, main_v34]
theorem refCh5_writes : (refCh5 : List (HloOp τ sig (Elt F))).Forall fun op => op.writes ⊆ (refCh5_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt6_keep (r : Ref sig .tc) (h : r ∉ refCh5_W) :
    refSt6 V0 (Proc.devRef .tc r) = refSt5 V0 (Proc.devRef .tc r) :=
  after_of_writes_sub refCh5 _ refCh5_writes h
theorem refSt6_arg (r : Ref sig .tc) (h : r ∈ refArgs) :
    refSt6 V0 (Proc.devRef .tc r) = V0 (Proc.devRef .tc r) :=
  (refSt6_keep V0 r ((by decide : ∀ r ∈ refArgs, r ∉ refCh5_W) r h)).trans (refSt5_arg V0 r h)
set_option maxRecDepth 8192 in
theorem refSt6_main_v34 : refSt6 V0 (no_index (Proc.devRef .tc main_v34)) = ReadP.val_main_v34 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) := by
  unfold refSt6
  simp only [refCh5]
  after_results_simp
  rw [refSt5_keep V0 main_v10 (by decide), refSt4_keep V0 main_v10 (by decide), refSt3_keep V0 main_v10 (by decide), refSt2_main_v10, refSt5_main_v28, refSt5_arg V0 main_arg8 (by decide), refSt5_arg V0 main_arg9 (by decide)]
  all_goals rfl

def refSt7 : Valuation τ sig (Elt F) := after refCh6 (refSt6 V0)

abbrev refCh6_W : List (Ref sig .tc) := [main_v35, main_v36, main_v37, main_v38, main_v39, main_v40, main_v41, main_v42]
theorem refCh6_writes : (refCh6 : List (HloOp τ sig (Elt F))).Forall fun op => op.writes ⊆ (refCh6_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt7_keep (r : Ref sig .tc) (h : r ∉ refCh6_W) :
    refSt7 V0 (Proc.devRef .tc r) = refSt6 V0 (Proc.devRef .tc r) :=
  after_of_writes_sub refCh6 _ refCh6_writes h
theorem refSt7_arg (r : Ref sig .tc) (h : r ∈ refArgs) :
    refSt7 V0 (Proc.devRef .tc r) = V0 (Proc.devRef .tc r) :=
  (refSt7_keep V0 r ((by decide : ∀ r ∈ refArgs, r ∉ refCh6_W) r h)).trans (refSt6_arg V0 r h)
set_option maxRecDepth 8192 in
theorem refSt7_main_v38 : refSt7 V0 (no_index (Proc.devRef .tc main_v38)) = ReadP.val_main_v38 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg12)) := by
  unfold refSt7
  simp only [refCh6]
  after_results_simp
  rw [refSt6_main_v34, refSt6_arg V0 main_arg10 (by decide), refSt6_arg V0 main_arg12 (by decide)]
  all_goals rfl
set_option maxRecDepth 8192 in
theorem refSt7_main_v42 : refSt7 V0 (no_index (Proc.devRef .tc main_v42)) = ReadP.val_main_v42 (F := F) (V0 (Proc.devRef .tc main_arg1)) (V0 (Proc.devRef .tc main_arg11)) (V0 (Proc.devRef .tc main_arg13)) := by
  unfold refSt7
  simp only [refCh6]
  after_results_simp
  rw [refSt6_keep V0 main_v11 (by decide), refSt5_keep V0 main_v11 (by decide), refSt4_keep V0 main_v11 (by decide), refSt3_keep V0 main_v11 (by decide), refSt2_main_v11, refSt6_arg V0 main_arg11 (by decide), refSt6_arg V0 main_arg13 (by decide)]
  all_goals rfl

def refSt8 : Valuation τ sig (Elt F) := after refCh7 (refSt7 V0)

abbrev refCh7_W : List (Ref sig .tc) := [main_v43, main_v44, main_v45, main_v46, main_v47, main_v48, main_v49, main_v50]
theorem refCh7_writes : (refCh7 : List (HloOp τ sig (Elt F))).Forall fun op => op.writes ⊆ (refCh7_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt8_keep (r : Ref sig .tc) (h : r ∉ refCh7_W) :
    refSt8 V0 (Proc.devRef .tc r) = refSt7 V0 (Proc.devRef .tc r) :=
  after_of_writes_sub refCh7 _ refCh7_writes h
theorem refSt8_arg (r : Ref sig .tc) (h : r ∈ refArgs) :
    refSt8 V0 (Proc.devRef .tc r) = V0 (Proc.devRef .tc r) :=
  (refSt8_keep V0 r ((by decide : ∀ r ∈ refArgs, r ∉ refCh7_W) r h)).trans (refSt7_arg V0 r h)
set_option maxRecDepth 8192 in
theorem refSt8_main_v44 : refSt8 V0 (no_index (Proc.devRef .tc main_v44)) = ReadP.val_main_v44 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg12)) := by
  unfold refSt8
  simp only [refCh7]
  after_results_simp
  rw [refSt7_main_v38]
  all_goals rfl
set_option maxRecDepth 8192 in
theorem refSt8_main_v45 : refSt8 V0 (no_index (Proc.devRef .tc main_v45)) = ReadP.val_main_v45 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg12)) := by
  unfold refSt8
  simp only [refCh7]
  after_results_simp
  rw [refSt7_main_v38]
  all_goals rfl
set_option maxRecDepth 8192 in
theorem refSt8_main_v47 : refSt8 V0 (no_index (Proc.devRef .tc main_v47)) = ReadP.val_main_v47 (F := F) (V0 (Proc.devRef .tc main_arg1)) (V0 (Proc.devRef .tc main_arg11)) (V0 (Proc.devRef .tc main_arg13)) := by
  unfold refSt8
  simp only [refCh7]
  after_results_simp
  rw [refSt7_main_v42]
  all_goals rfl
set_option maxRecDepth 8192 in
theorem refSt8_main_v48 : refSt8 V0 (no_index (Proc.devRef .tc main_v48)) = ReadP.val_main_v48 (F := F) (V0 (Proc.devRef .tc main_arg1)) (V0 (Proc.devRef .tc main_arg11)) (V0 (Proc.devRef .tc main_arg13)) := by
  unfold refSt8
  simp only [refCh7]
  after_results_simp
  rw [refSt7_main_v42]
  all_goals rfl
set_option maxRecDepth 8192 in
theorem refSt8_main_v50 : refSt8 V0 (no_index (Proc.devRef .tc main_v50)) = ReadP.val_main_v50 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt8
  simp only [refCh7]
  after_results_simp
  rw [refSt7_main_v38, refSt7_main_v42]
  all_goals rfl

def refSt9 : Valuation τ sig (Elt F) := after refCh8 (refSt8 V0)

abbrev refCh8_W : List (Ref sig .tc) := [main_v51, main_cst_5, main_v52, main_v53, main_cst_6, main_v54, main_v55, main_v56]
theorem refCh8_writes : (refCh8 : List (HloOp τ sig (Elt F))).Forall fun op => op.writes ⊆ (refCh8_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt9_keep (r : Ref sig .tc) (h : r ∉ refCh8_W) :
    refSt9 V0 (Proc.devRef .tc r) = refSt8 V0 (Proc.devRef .tc r) :=
  after_of_writes_sub refCh8 _ refCh8_writes h
theorem refSt9_arg (r : Ref sig .tc) (h : r ∈ refArgs) :
    refSt9 V0 (Proc.devRef .tc r) = V0 (Proc.devRef .tc r) :=
  (refSt9_keep V0 r ((by decide : ∀ r ∈ refArgs, r ∉ refCh8_W) r h)).trans (refSt8_arg V0 r h)
set_option maxRecDepth 8192 in
theorem refSt9_main_v55 : refSt9 V0 (no_index (Proc.devRef .tc main_v55)) = ReadP.val_main_v55 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt9
  simp only [refCh8]
  after_results_simp
  rw [refSt8_main_v50]
  all_goals rfl
set_option maxRecDepth 8192 in
theorem refSt9_main_v56 : refSt9 V0 (no_index (Proc.devRef .tc main_v56)) = ReadP.val_main_v56 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt9
  simp only [refCh8]
  after_results_simp
  rw [refSt8_main_v44, refSt8_main_v47]
  all_goals rfl

def refSt10 : Valuation τ sig (Elt F) := after refCh9 (refSt9 V0)

abbrev refCh9_W : List (Ref sig .tc) := [main_v57, main_v58, main_cst_7, main_v59, main_v60, main_cst_8, main_v61, main_v62]
theorem refCh9_writes : (refCh9 : List (HloOp τ sig (Elt F))).Forall fun op => op.writes ⊆ (refCh9_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt10_keep (r : Ref sig .tc) (h : r ∉ refCh9_W) :
    refSt10 V0 (Proc.devRef .tc r) = refSt9 V0 (Proc.devRef .tc r) :=
  after_of_writes_sub refCh9 _ refCh9_writes h
theorem refSt10_arg (r : Ref sig .tc) (h : r ∈ refArgs) :
    refSt10 V0 (Proc.devRef .tc r) = V0 (Proc.devRef .tc r) :=
  (refSt10_keep V0 r ((by decide : ∀ r ∈ refArgs, r ∉ refCh9_W) r h)).trans (refSt9_arg V0 r h)
set_option maxRecDepth 8192 in
theorem refSt10_main_v62 : refSt10 V0 (no_index (Proc.devRef .tc main_v62)) = ReadP.val_main_v62 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt10
  simp only [refCh9]
  after_results_simp
  rw [refSt9_main_v56]
  all_goals rfl

def refSt11 : Valuation τ sig (Elt F) := after refCh10 (refSt10 V0)

abbrev refCh10_W : List (Ref sig .tc) := [main_v63, main_v64, main_v65, main_cst_9, main_v66, main_v67, main_v68, main_v69]
theorem refCh10_writes : (refCh10 : List (HloOp τ sig (Elt F))).Forall fun op => op.writes ⊆ (refCh10_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt11_keep (r : Ref sig .tc) (h : r ∉ refCh10_W) :
    refSt11 V0 (Proc.devRef .tc r) = refSt10 V0 (Proc.devRef .tc r) :=
  after_of_writes_sub refCh10 _ refCh10_writes h
theorem refSt11_arg (r : Ref sig .tc) (h : r ∈ refArgs) :
    refSt11 V0 (Proc.devRef .tc r) = V0 (Proc.devRef .tc r) :=
  (refSt11_keep V0 r ((by decide : ∀ r ∈ refArgs, r ∉ refCh10_W) r h)).trans (refSt10_arg V0 r h)
set_option maxRecDepth 8192 in
theorem refSt11_main_v68 : refSt11 V0 (no_index (Proc.devRef .tc main_v68)) = ReadP.val_main_v68 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt11
  simp only [refCh10]
  after_results_simp
  rw [refSt10_main_v62, refSt10_keep V0 main_v45 (by decide), refSt9_keep V0 main_v45 (by decide), refSt8_main_v45, refSt10_keep V0 main_v55 (by decide), refSt9_main_v55, refSt10_keep V0 main_v48 (by decide), refSt9_keep V0 main_v48 (by decide), refSt8_main_v48]
  all_goals rfl
set_option maxRecDepth 8192 in
theorem refSt11_main_v69 : refSt11 V0 (no_index (Proc.devRef .tc main_v69)) = ReadP.val_main_v69 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt11
  simp only [refCh10]
  after_results_simp
  rw [refSt10_main_v62, refSt10_keep V0 main_v11 (by decide), refSt9_keep V0 main_v11 (by decide), refSt8_keep V0 main_v11 (by decide), refSt7_keep V0 main_v11 (by decide), refSt6_keep V0 main_v11 (by decide), refSt5_keep V0 main_v11 (by decide), refSt4_keep V0 main_v11 (by decide), refSt3_keep V0 main_v11 (by decide), refSt2_main_v11]
  all_goals rfl

def refSt12 : Valuation τ sig (Elt F) := after refCh11 (refSt11 V0)

abbrev refCh11_W : List (Ref sig .tc) := [main_v70, main_v71, main_v72, main_v73, main_v74, main_v75, main_v76, main_v77]
theorem refCh11_writes : (refCh11 : List (HloOp τ sig (Elt F))).Forall fun op => op.writes ⊆ (refCh11_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt12_keep (r : Ref sig .tc) (h : r ∉ refCh11_W) :
    refSt12 V0 (Proc.devRef .tc r) = refSt11 V0 (Proc.devRef .tc r) :=
  after_of_writes_sub refCh11 _ refCh11_writes h
theorem refSt12_arg (r : Ref sig .tc) (h : r ∈ refArgs) :
    refSt12 V0 (Proc.devRef .tc r) = V0 (Proc.devRef .tc r) :=
  (refSt12_keep V0 r ((by decide : ∀ r ∈ refArgs, r ∉ refCh11_W) r h)).trans (refSt11_arg V0 r h)
set_option maxRecDepth 8192 in
theorem refSt12_main_v70 : refSt12 V0 (no_index (Proc.devRef .tc main_v70)) = ReadP.val_main_v70 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt12
  simp only [refCh11]
  after_results_simp
  rw [refSt11_main_v68, refSt11_main_v69]
  all_goals rfl
set_option maxRecDepth 8192 in
theorem refSt12_main_v74 : refSt12 V0 (no_index (Proc.devRef .tc main_v74)) = ReadP.val_main_v74 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold refSt12
  simp only [refCh11]
  after_results_simp
  rw [refSt11_main_v68, refSt11_main_v69, refSt11_arg V0 main_arg14 (by decide), refSt11_arg V0 main_arg15 (by decide)]
  all_goals rfl
set_option maxRecDepth 8192 in
theorem refSt12_main_v75 : refSt12 V0 (no_index (Proc.devRef .tc main_v75)) = ReadP.val_main_v75 (F := F) (V0 (Proc.devRef .tc main_arg3)) := by
  unfold refSt12
  simp only [refCh11]
  after_results_simp
  rw [refSt11_arg V0 main_arg3 (by decide)]
  all_goals rfl
set_option maxRecDepth 8192 in
theorem refSt12_main_v77 : refSt12 V0 (no_index (Proc.devRef .tc main_v77)) = ReadP.val_main_v77 (F := F) (V0 (Proc.devRef .tc main_arg3)) (V0 (Proc.devRef .tc main_arg16)) := by
  unfold refSt12
  simp only [refCh11]
  after_results_simp
  rw [refSt11_arg V0 main_arg3 (by decide), refSt11_arg V0 main_arg16 (by decide)]
  all_goals rfl

def refSt13 : Valuation τ sig (Elt F) := after refCh12 (refSt12 V0)

abbrev refCh12_W : List (Ref sig .tc) := [main_v78, main_v79, main_v80, main_v81, main_cst_10, main_v82, main_v83, main_cst_11]
theorem refCh12_writes : (refCh12 : List (HloOp τ sig (Elt F))).Forall fun op => op.writes ⊆ (refCh12_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt13_keep (r : Ref sig .tc) (h : r ∉ refCh12_W) :
    refSt13 V0 (Proc.devRef .tc r) = refSt12 V0 (Proc.devRef .tc r) :=
  after_of_writes_sub refCh12 _ refCh12_writes h
theorem refSt13_arg (r : Ref sig .tc) (h : r ∈ refArgs) :
    refSt13 V0 (Proc.devRef .tc r) = V0 (Proc.devRef .tc r) :=
  (refSt13_keep V0 r ((by decide : ∀ r ∈ refArgs, r ∉ refCh12_W) r h)).trans (refSt12_arg V0 r h)
set_option maxRecDepth 8192 in
theorem refSt13_main_v83 : refSt13 V0 (no_index (Proc.devRef .tc main_v83)) = ReadP.val_main_v83 (F := F) (V0 (Proc.devRef .tc main_arg3)) (V0 (Proc.devRef .tc main_arg16)) (V0 (Proc.devRef .tc main_arg17)) := by
  unfold refSt13
  simp only [refCh12]
  after_results_simp
  rw [refSt12_main_v77, refSt12_arg V0 main_arg17 (by decide)]
  all_goals rfl
set_option maxRecDepth 8192 in
theorem refSt13_main_cst_11 : refSt13 V0 (no_index (Proc.devRef .tc main_cst_11)) = ReadP.val_main_cst_11 (F := F) := by
  unfold refSt13
  simp only [refCh12]
  after_results_simp
  all_goals rfl

def refSt14 : Valuation τ sig (Elt F) := after refCh13 (refSt13 V0)

abbrev refCh13_W : List (Ref sig .tc) := [main_v84, main_v85, main_cst_12, main_v86, main_v87, main_v88, main_v89, main_cst_13]
theorem refCh13_writes : (refCh13 : List (HloOp τ sig (Elt F))).Forall fun op => op.writes ⊆ (refCh13_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt14_keep (r : Ref sig .tc) (h : r ∉ refCh13_W) :
    refSt14 V0 (Proc.devRef .tc r) = refSt13 V0 (Proc.devRef .tc r) :=
  after_of_writes_sub refCh13 _ refCh13_writes h
theorem refSt14_arg (r : Ref sig .tc) (h : r ∈ refArgs) :
    refSt14 V0 (Proc.devRef .tc r) = V0 (Proc.devRef .tc r) :=
  (refSt14_keep V0 r ((by decide : ∀ r ∈ refArgs, r ∉ refCh13_W) r h)).trans (refSt13_arg V0 r h)
set_option maxRecDepth 8192 in
theorem refSt14_main_v85 : refSt14 V0 (no_index (Proc.devRef .tc main_v85)) = ReadP.val_main_v85 (F := F) (V0 (Proc.devRef .tc main_arg3)) (V0 (Proc.devRef .tc main_arg16)) (V0 (Proc.devRef .tc main_arg17)) := by
  unfold refSt14
  simp only [refCh13]
  after_results_simp
  rw [refSt13_main_cst_11, refSt13_main_v83]
  all_goals rfl
set_option maxRecDepth 8192 in
theorem refSt14_main_v89 : refSt14 V0 (no_index (Proc.devRef .tc main_v89)) = ReadP.val_main_v89 (F := F) (V0 (Proc.devRef .tc main_arg3)) (V0 (Proc.devRef .tc main_arg16)) (V0 (Proc.devRef .tc main_arg17)) := by
  unfold refSt14
  simp only [refCh13]
  after_results_simp
  rw [refSt13_keep V0 main_v75 (by decide), refSt12_main_v75, refSt13_main_cst_11, refSt13_main_v83]
  all_goals rfl
set_option maxRecDepth 8192 in
theorem refSt14_main_cst_13 : refSt14 V0 (no_index (Proc.devRef .tc main_cst_13)) = ReadP.val_main_cst_13 (F := F) := by
  unfold refSt14
  simp only [refCh13]
  after_results_simp
  all_goals rfl

def refSt15 : Valuation τ sig (Elt F) := after refCh14 (refSt14 V0)

abbrev refCh14_W : List (Ref sig .tc) := [main_v90, main_v91, main_v92, main_v93, main_v94, main_cst_14, main_v95, main_cst_15]
theorem refCh14_writes : (refCh14 : List (HloOp τ sig (Elt F))).Forall fun op => op.writes ⊆ (refCh14_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt15_keep (r : Ref sig .tc) (h : r ∉ refCh14_W) :
    refSt15 V0 (Proc.devRef .tc r) = refSt14 V0 (Proc.devRef .tc r) :=
  after_of_writes_sub refCh14 _ refCh14_writes h
theorem refSt15_arg (r : Ref sig .tc) (h : r ∈ refArgs) :
    refSt15 V0 (Proc.devRef .tc r) = V0 (Proc.devRef .tc r) :=
  (refSt15_keep V0 r ((by decide : ∀ r ∈ refArgs, r ∉ refCh14_W) r h)).trans (refSt14_arg V0 r h)
set_option maxRecDepth 8192 in
theorem refSt15_main_v94 : refSt15 V0 (no_index (Proc.devRef .tc main_v94)) = ReadP.val_main_v94 (F := F) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold refSt15
  simp only [refCh14]
  after_results_simp
  rw [refSt14_keep V0 main_v74 (by decide), refSt13_keep V0 main_v74 (by decide), refSt12_main_v74, refSt14_main_cst_13, refSt14_main_v89, refSt14_keep V0 main_v75 (by decide), refSt13_keep V0 main_v75 (by decide), refSt12_main_v75, refSt14_main_v85]
  all_goals rfl
set_option maxRecDepth 8192 in
theorem refSt15_main_v95 : refSt15 V0 (no_index (Proc.devRef .tc main_v95)) = ReadP.val_main_v95 (F := F) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold refSt15
  simp only [refCh14]
  after_results_simp
  rw [refSt14_keep V0 main_v74 (by decide), refSt13_keep V0 main_v74 (by decide), refSt12_main_v74, refSt14_main_cst_13, refSt14_main_v89, refSt14_keep V0 main_v75 (by decide), refSt13_keep V0 main_v75 (by decide), refSt12_main_v75, refSt14_main_v85]
  all_goals rfl
set_option maxRecDepth 8192 in
theorem refSt15_main_cst_15 : refSt15 V0 (no_index (Proc.devRef .tc main_cst_15)) = ReadP.val_main_cst_15 (F := F) := by
  unfold refSt15
  simp only [refCh14]
  after_results_simp
  all_goals rfl

def refSt16 : Valuation τ sig (Elt F) := after refCh15 (refSt15 V0)

abbrev refCh15_W : List (Ref sig .tc) := [main_v96, main_v97, main_v98, main_v99, main_v100, main_v101, main_cst_16, main_v102]
theorem refCh15_writes : (refCh15 : List (HloOp τ sig (Elt F))).Forall fun op => op.writes ⊆ (refCh15_W.map (Proc.devRef (τ := τ) .tc)).toFinset := by
  simp only [List.Forall]; exact ⟨by ref_writes_mem, by ref_writes_mem, by ref_writes_mem, by ref_writes_mem, by ref_writes_mem, by ref_writes_mem, by ref_writes_mem, by ref_writes_mem⟩

theorem refSt16_keep (r : Ref sig .tc) (h : r ∉ refCh15_W) :
    refSt16 V0 (Proc.devRef .tc r) = refSt15 V0 (Proc.devRef .tc r) :=
  after_of_writes_sub refCh15 _ refCh15_writes h
theorem refSt16_arg (r : Ref sig .tc) (h : r ∈ refArgs) :
    refSt16 V0 (Proc.devRef .tc r) = V0 (Proc.devRef .tc r) :=
  (refSt16_keep V0 r ((by decide : ∀ r ∈ refArgs, r ∉ refCh15_W) r h)).trans (refSt15_arg V0 r h)
set_option maxRecDepth 8192 in
theorem refSt16_main_v101 : refSt16 V0 (no_index (Proc.devRef .tc main_v101)) = ReadP.val_main_v101 (F := F) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold refSt16
  simp only [refCh15]
  after_results_simp
  rw [refSt15_main_v94, refSt15_main_cst_15, refSt15_main_v95]
  all_goals rfl
set_option maxRecDepth 8192 in
theorem refSt16_main_v102 : refSt16 V0 (no_index (Proc.devRef .tc main_v102)) = ReadP.val_main_v102 (F := F) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold refSt16
  simp only [refCh15]
  after_results_simp
  rw [refSt15_main_v94, refSt15_main_cst_15, refSt15_main_v95]
  all_goals rfl

def refSt17 : Valuation τ sig (Elt F) := after refCh16 (refSt16 V0)

abbrev refCh16_W : List (Ref sig .tc) := [main_v103, main_v104, main_v105, main_v106]
theorem refCh16_writes : (refCh16 : List (HloOp τ sig (Elt F))).Forall fun op => op.writes ⊆ (refCh16_W.map (Proc.devRef (τ := τ) .tc)).toFinset := by
  simp only [List.Forall]; exact ⟨by ref_writes_mem, by ref_writes_mem, by ref_writes_mem, by ref_writes_mem⟩

theorem refSt17_keep (r : Ref sig .tc) (h : r ∉ refCh16_W) :
    refSt17 V0 (Proc.devRef .tc r) = refSt16 V0 (Proc.devRef .tc r) :=
  after_of_writes_sub refCh16 _ refCh16_writes h
theorem refSt17_arg (r : Ref sig .tc) (h : r ∈ refArgs) :
    refSt17 V0 (Proc.devRef .tc r) = V0 (Proc.devRef .tc r) :=
  (refSt17_keep V0 r ((by decide : ∀ r ∈ refArgs, r ∉ refCh16_W) r h)).trans (refSt16_arg V0 r h)
set_option maxRecDepth 8192 in
theorem refSt17_main_v105 : refSt17 V0 (no_index (Proc.devRef .tc main_v105)) = ReadP.val_main_v105 (F := F) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold refSt17
  simp only [refCh16]
  after_results_simp
  rw [refSt16_main_v101, refSt16_main_v102]
  all_goals rfl
set_option maxRecDepth 8192 in
theorem refSt17_main_v106 : refSt17 V0 (no_index (Proc.devRef .tc main_v106)) = ReadP.val_main_v106 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold refSt17
  simp only [refCh16]
  after_results_simp
  rw [refSt16_keep V0 main_v70 (by decide), refSt15_keep V0 main_v70 (by decide), refSt14_keep V0 main_v70 (by decide), refSt13_keep V0 main_v70 (by decide), refSt12_main_v70]
  all_goals rfl

theorem after_ref : after refOps V0 = refSt17 V0 := by
  unfold refOps; simp only [StableHlo.after_append]; rfl

set_option maxRecDepth 8192 in

-- Every execution ends with the three results at their stage functions of the arguments, and the arguments as launched.
theorem staged_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = ReadP.val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v106) = ReadP.val_main_v106 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v27) = ReadP.val_main_v27 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v105).trans ((congrFun (after_ref _) _).trans (refSt17_main_v105 (launchContents m c))),
      (h c main_v106).trans ((congrFun (after_ref _) _).trans (refSt17_main_v106 (launchContents m c))),
      (h c main_v27).trans ((congrFun (after_ref _) _).trans ((refSt17_keep _ main_v27 (by decide)).trans ((refSt16_keep _ main_v27 (by decide)).trans ((refSt15_keep _ main_v27 (by decide)).trans ((refSt14_keep _ main_v27 (by decide)).trans ((refSt13_keep _ main_v27 (by decide)).trans ((refSt12_keep _ main_v27 (by decide)).trans ((refSt11_keep _ main_v27 (by decide)).trans ((refSt10_keep _ main_v27 (by decide)).trans ((refSt9_keep _ main_v27 (by decide)).trans ((refSt8_keep _ main_v27 (by decide)).trans ((refSt7_keep _ main_v27 (by decide)).trans ((refSt6_keep _ main_v27 (by decide)).trans (refSt5_main_v27 (launchContents m c))))))))))))))),
      (h c main_arg0).trans ((congrFun (after_ref _) _).trans (refSt17_arg (launchContents m c) main_arg0 (by decide))),
      (h c main_arg1).trans ((congrFun (after_ref _) _).trans (refSt17_arg (launchContents m c) main_arg1 (by decide))),
      (h c main_arg2).trans ((congrFun (after_ref _) _).trans (refSt17_arg (launchContents m c) main_arg2 (by decide))),
      (h c main_arg3).trans ((congrFun (after_ref _) _).trans (refSt17_arg (launchContents m c) main_arg3 (by decide))),
      (h c main_arg4).trans ((congrFun (after_ref _) _).trans (refSt17_arg (launchContents m c) main_arg4 (by decide))),
      (h c main_arg5).trans ((congrFun (after_ref _) _).trans (refSt17_arg (launchContents m c) main_arg5 (by decide))),
      (h c main_arg6).trans ((congrFun (after_ref _) _).trans (refSt17_arg (launchContents m c) main_arg6 (by decide))),
      (h c main_arg7).trans ((congrFun (after_ref _) _).trans (refSt17_arg (launchContents m c) main_arg7 (by decide))),
      (h c main_arg8).trans ((congrFun (after_ref _) _).trans (refSt17_arg (launchContents m c) main_arg8 (by decide))),
      (h c main_arg9).trans ((congrFun (after_ref _) _).trans (refSt17_arg (launchContents m c) main_arg9 (by decide))),
      (h c main_arg10).trans ((congrFun (after_ref _) _).trans (refSt17_arg (launchContents m c) main_arg10 (by decide))),
      (h c main_arg11).trans ((congrFun (after_ref _) _).trans (refSt17_arg (launchContents m c) main_arg11 (by decide))),
      (h c main_arg12).trans ((congrFun (after_ref _) _).trans (refSt17_arg (launchContents m c) main_arg12 (by decide))),
      (h c main_arg13).trans ((congrFun (after_ref _) _).trans (refSt17_arg (launchContents m c) main_arg13 (by decide))),
      (h c main_arg14).trans ((congrFun (after_ref _) _).trans (refSt17_arg (launchContents m c) main_arg14 (by decide))),
      (h c main_arg15).trans ((congrFun (after_ref _) _).trans (refSt17_arg (launchContents m c) main_arg15 (by decide))),
      (h c main_arg16).trans ((congrFun (after_ref _) _).trans (refSt17_arg (launchContents m c) main_arg16 (by decide))),
      (h c main_arg17).trans ((congrFun (after_ref _) _).trans (refSt17_arg (launchContents m c) main_arg17 (by decide)))⟩)
    (run_seq ref_scopedRefs ref_scopedSems defs main (fun _ => refOps) ref_main_eq (fun _ => refOps_sub) m ρ)

end Cert.ReferenceIdeal.Val

end
-- ==== Proof.lean ====
import proofs.«416939_j18966575579384_3_alg».proof.Defs
import proofs.«416939_j18966575579384_3_alg».proof.Proof.Gen.Kernel
import proofs.«416939_j18966575579384_3_alg».proof.Proof.Gen.KernelIdeal
import proofs.«416939_j18966575579384_3_alg».proof.Proof.Gen.ReferenceIdeal
import proofs.«416939_j18966575579384_3_alg».proof.Proof.Gen.Pre_finite_inputs
import proofs.«416939_j18966575579384_3_alg».proof.Proof.K.Run
import proofs.«416939_j18966575579384_3_alg».proof.Proof.KI.Run
import proofs.«416939_j18966575579384_3_alg».proof.Proof.Val.Chain0
import proofs.«416939_j18966575579384_3_alg».proof.Proof.Val.Chain3
import proofs.«416939_j18966575579384_3_alg».proof.Proof.Val.RefStaged
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.Val.staged_run (F := Ideal) m ρ)

theorem preserves : Cert.preserves_Kernel_KernelIdeal := trivial

-- Both runs end at the same stage functions of the arguments: the kernel's by the chain equations, the reference's by its staged run.
theorem algebraic : Cert.algebraic_KernelIdeal_ReferenceIdeal := by
  intro m ρ m' ρ' _ hagree
  refine ⟨fun c => Cert.ReferenceIdeal.ReadP.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.ReadP.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.ReadP.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v92 (by decide))).trans (Cert.KernelIdeal.Val.chain92 m ρ c),
      (h c _ (Cert.KernelIdeal.Hand.mem_uc Cert.KernelIdeal.main_v93 (by decide))).trans (Cert.KernelIdeal.Val.chain93 m ρ c),
      (h c _ (Cert.KernelIdeal.Hand.mem_uc Cert.KernelIdeal.main_v32 (by decide))).trans (Cert.KernelIdeal.Val.chain32 m ρ c),
      Cert.KernelIdeal.Hand.arg_kept m ρ c _ (h c) Cert.KernelIdeal.main_arg0 (by decide),
      Cert.KernelIdeal.Hand.arg_kept m ρ c _ (h c) Cert.KernelIdeal.main_arg1 (by decide),
      Cert.KernelIdeal.Hand.arg_kept m ρ c _ (h c) Cert.KernelIdeal.main_arg2 (by decide),
      Cert.KernelIdeal.Hand.arg_kept m ρ c _ (h c) Cert.KernelIdeal.main_arg3 (by decide),
      Cert.KernelIdeal.Hand.arg_kept m ρ c _ (h c) Cert.KernelIdeal.main_arg4 (by decide),
      Cert.KernelIdeal.Hand.arg_kept m ρ c _ (h c) Cert.KernelIdeal.main_arg5 (by decide),
      Cert.KernelIdeal.Hand.arg_kept m ρ c _ (h c) Cert.KernelIdeal.main_arg6 (by decide),
      Cert.KernelIdeal.Hand.arg_kept m ρ c _ (h c) Cert.KernelIdeal.main_arg7 (by decide),
      Cert.KernelIdeal.Hand.arg_kept m ρ c _ (h c) Cert.KernelIdeal.main_arg8 (by decide),
      Cert.KernelIdeal.Hand.arg_kept m ρ c _ (h c) Cert.KernelIdeal.main_arg9 (by decide),
      Cert.KernelIdeal.Hand.arg_kept m ρ c _ (h c) Cert.KernelIdeal.main_arg10 (by decide),
      Cert.KernelIdeal.Hand.arg_kept m ρ c _ (h c) Cert.KernelIdeal.main_arg11 (by decide),
      Cert.KernelIdeal.Hand.arg_kept m ρ c _ (h c) Cert.KernelIdeal.main_arg12 (by decide),
      Cert.KernelIdeal.Hand.arg_kept m ρ c _ (h c) Cert.KernelIdeal.main_arg13 (by decide),
      Cert.KernelIdeal.Hand.arg_kept m ρ c _ (h c) Cert.KernelIdeal.main_arg14 (by decide),
      Cert.KernelIdeal.Hand.arg_kept m ρ c _ (h c) Cert.KernelIdeal.main_arg15 (by decide),
      Cert.KernelIdeal.Hand.arg_kept m ρ c _ (h c) Cert.KernelIdeal.main_arg16 (by decide),
      Cert.KernelIdeal.Hand.arg_kept m ρ c _ (h c) Cert.KernelIdeal.main_arg17 (by decide)⟩
  · refine (θ_run Cert.ReferenceIdeal.defs _ _).mono (fun r h c => ?_) (Cert.ReferenceIdeal.Val.staged_run (F := Ideal) m' ρ')
    obtain ⟨e0, e1, e2, e3, e4, e5, e6, e7, e8, e9, e10, e11, e12, e13, e14, e15, e16, e17⟩ := hagree c
    refine ⟨(h c).1.trans ?_, (h c).2.1.trans ?_, (h c).2.2.1.trans ?_, (h c).2.2.2⟩
    · rw [e0, e1, e2, e3, e5, e6, e7, e8, e9, e10, e11, e12, e13, e14, e15, e16, e17]
    · rw [e0, e1, e2, e5, e6, e7, e8, e9, e10, e11, e12, e13]
    · rw [e0, e1, e5, e6, e7]

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
